-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x140 : Shape := ⟨2, ![50000, 140]⟩
abbrev S2x800000 : Shape := ⟨2, ![2, 800000]⟩
abbrev S50000 : Shape := ⟨1, ![50000]⟩
abbrev S140x128 : Shape := ⟨2, ![140, 128]⟩
abbrev S128 : Shape := ⟨1, ![128]⟩
abbrev S128x128 : Shape := ⟨2, ![128, 128]⟩
abbrev S128x73 : Shape := ⟨2, ![128, 73]⟩
abbrev S73 : Shape := ⟨1, ![73]⟩
abbrev S73x41 : Shape := ⟨2, ![73, 41]⟩
abbrev S41 : Shape := ⟨1, ![41]⟩
abbrev S41x24 : Shape := ⟨2, ![41, 24]⟩
abbrev S24 : Shape := ⟨1, ![24]⟩
abbrev S_ : Shape := ⟨0, ![]⟩

class Facts : Prop where
  bcast_S_S50000x140 : S_.BroadcastsInDim S50000x140 (![] : Fin 0 → Fin S50000x140.rank)
  reducesTo_S50000x140_S_d0_1 : S50000x140.ReducesTo [0, 1] S_
  h_S_ : 0 < S_.numel
  bcast_S_S140x128 : S_.BroadcastsInDim S140x128 (![] : Fin 0 → Fin S140x128.rank)
  reducesTo_S140x128_S_d0_1 : S140x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x73 : S_.BroadcastsInDim S128x73 (![] : Fin 0 → Fin S128x73.rank)
  reducesTo_S128x73_S_d0_1 : S128x73.ReducesTo [0, 1] S_
  bcast_S_S73 : S_.BroadcastsInDim S73 (![] : Fin 0 → Fin S73.rank)
  reducesTo_S73_S_d0 : S73.ReducesTo [0] S_
  bcast_S_S73x41 : S_.BroadcastsInDim S73x41 (![] : Fin 0 → Fin S73x41.rank)
  reducesTo_S73x41_S_d0_1 : S73x41.ReducesTo [0, 1] S_
  bcast_S_S41 : S_.BroadcastsInDim S41 (![] : Fin 0 → Fin S41.rank)
  reducesTo_S41_S_d0 : S41.ReducesTo [0] S_
  bcast_S_S41x24 : S_.BroadcastsInDim S41x24 (![] : Fin 0 → Fin S41x24.rank)
  reducesTo_S41x24_S_d0_1 : S41x24.ReducesTo [0, 1] S_
  bcast_S_S24 : S_.BroadcastsInDim S24 (![] : Fin 0 → Fin S24.rank)
  reducesTo_S24_S_d0 : S24.ReducesTo [0] S_

variable [Facts]

def fn_part3 {F : FTy → Type} [FloatOps F] (main_v48 : IVec S_ 1) (main_v49 : FVec F S24 .f32) (main_v50 : FVec F S24 .f32) : IVec S_ 1 :=
  let main_v51 : IVec S24 1 := cmpf .olt main_v49 main_v50
  let main_c_19 : IVec S_ 1 := constantI S_ 1 1#1
  let main_v52 : IVec S_ 1 := (fun x v => Host.reduce IntOp.andi x v reducesTo_S24_S_d0 h_S_) main_v51 main_c_19
  let main_v53 : IVec S_ 1 := andi main_v48 main_v52
  main_v53

def fn_part2 {F : FTy → Type} [FloatOps F] (main_arg9 : FVec F S73x41 .f32) (main_arg10 : FVec F S41 .f32) (main_arg11 : FVec F S41x24 .f32) (main_arg12 : FVec F S24 .f32) (main_v33 : IVec S_ 1) : IVec S_ 1 :=
  let main_v34 : FVec F S73x41 .f32 := Host.absf main_arg9
  let main_cst_12 : FVec F S_ .f32 := constant S_ .f32 0x7F800000#32
  let main_v35 : FVec F S73x41 .f32 := broadcastInDim S73x41 ![] bcast_S_S73x41 main_cst_12
  let main_v36 : IVec S73x41 1 := cmpf .olt main_v34 main_v35
  let main_c_13 : IVec S_ 1 := constantI S_ 1 1#1
  let main_v37 : IVec S_ 1 := (fun x v => Host.reduce IntOp.andi x v reducesTo_S73x41_S_d0_1 h_S_) main_v36 main_c_13
  let main_v38 : IVec S_ 1 := andi main_v33 main_v37
  let main_v39 : FVec F S41 .f32 := Host.absf main_arg10
  let main_cst_14 : FVec F S_ .f32 := constant S_ .f32 0x7F800000#32
  let main_v40 : FVec F S41 .f32 := broadcastInDim S41 ![] bcast_S_S41 main_cst_14
  let main_v41 : IVec S41 1 := cmpf .olt main_v39 main_v40
  let main_c_15 : IVec S_ 1 := constantI S_ 1 1#1
  let main_v42 : IVec S_ 1 := (fun x v => Host.reduce IntOp.andi x v reducesTo_S41_S_d0 h_S_) main_v41 main_c_15
  let main_v43 : IVec S_ 1 := andi main_v38 main_v42
  let main_v44 : FVec F S41x24 .f32 := Host.absf main_arg11
  let main_cst_16 : FVec F S_ .f32 := constant S_ .f32 0x7F800000#32
  let main_v45 : FVec F S41x24 .f32 := broadcastInDim S41x24 ![] bcast_S_S41x24 main_cst_16
  let main_v46 : IVec S41x24 1 := cmpf .olt main_v44 main_v45
  let main_c_17 : IVec S_ 1 := constantI S_ 1 1#1
  let main_v47 : IVec S_ 1 := (fun x v => Host.reduce IntOp.andi x v reducesTo_S41x24_S_d0_1 h_S_) main_v46 main_c_17
  let main_v48 : IVec S_ 1 := andi main_v43 main_v47
  let main_v49 : FVec F S24 .f32 := Host.absf main_arg12
  let main_cst_18 : FVec F S_ .f32 := constant S_ .f32 0x7F800000#32
  let main_v50 : FVec F S24 .f32 := broadcastInDim S24 ![] bcast_S_S24 main_cst_18
  fn_part3 (F := F) main_v48 main_v49 main_v50

def fn_part1 {F : FTy → Type} [FloatOps F] (main_arg6 : FVec F S128 .f32) (main_arg7 : FVec F S128x73 .f32) (main_arg8 : FVec F S73 .f32) (main_arg9 : FVec F S73x41 .f32) (main_arg10 : FVec F S41 .f32) (main_arg11 : FVec F S41x24 .f32) (main_arg12 : FVec F S24 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x73 .f32 := Host.absf main_arg7
  let main_cst_8 : FVec F S_ .f32 := constant S_ .f32 0x7F800000#32
  let main_v25 : FVec F S128x73 .f32 := broadcastInDim S128x73 ![] bcast_S_S128x73 main_cst_8
  let main_v26 : IVec S128x73 1 := cmpf .olt main_v24 main_v25
  let main_c_9 : IVec S_ 1 := constantI S_ 1 1#1
  let main_v27 : IVec S_ 1 := (fun x v => Host.reduce IntOp.andi x v reducesTo_S128x73_S_d0_1 h_S_) main_v26 main_c_9
  let main_v28 : IVec S_ 1 := andi main_v23 main_v27
  let main_v29 : FVec F S73 .f32 := Host.absf main_arg8
  let main_cst_10 : FVec F S_ .f32 := constant S_ .f32 0x7F800000#32
  let main_v30 : FVec F S73 .f32 := broadcastInDim S73 ![] bcast_S_S73 main_cst_10
  let main_v31 : IVec S73 1 := cmpf .olt main_v29 main_v30
  let main_c_11 : IVec S_ 1 := constantI S_ 1 1#1
  let main_v32 : IVec S_ 1 := (fun x v => Host.reduce IntOp.andi x v reducesTo_S73_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x140 .f32) (main_arg1 : IVec S2x800000 32) (main_arg2 : IVec S50000 32) (main_arg3 : FVec F S140x128 .f32) (main_arg4 : FVec F S128 .f32) (main_arg5 : FVec F S128x128 .f32) (main_arg6 : FVec F S128 .f32) (main_arg7 : FVec F S128x73 .f32) (main_arg8 : FVec F S73 .f32) (main_arg9 : FVec F S73x41 .f32) (main_arg10 : FVec F S41 .f32) (main_arg11 : FVec F S41x24 .f32) (main_arg12 : FVec F S24 .f32) : IVec S_ 1 :=
  let main_v0 : FVec F S50000x140 .f32 := Host.absf main_arg0
  let main_cst : FVec F S_ .f32 := constant S_ .f32 0x7F800000#32
  let main_v1 : FVec F S50000x140 .f32 := broadcastInDim S50000x140 ![] bcast_S_S50000x140 main_cst
  let main_v2 : IVec S50000x140 1 := cmpf .olt main_v0 main_v1
  let main_c : IVec S_ 1 := constantI S_ 1 1#1
  let main_v3 : IVec S_ 1 := (fun x v => Host.reduce IntOp.andi x v reducesTo_S50000x140_S_d0_1 h_S_) main_v2 main_c
  let main_v4 : FVec F S140x128 .f32 := Host.absf main_arg3
  let main_cst_0 : FVec F S_ .f32 := constant S_ .f32 0x7F800000#32
  let main_v5 : FVec F S140x128 .f32 := broadcastInDim S140x128 ![] bcast_S_S140x128 main_cst_0
  let main_v6 : IVec S140x128 1 := cmpf .olt main_v4 main_v5
  let main_c_1 : IVec S_ 1 := constantI S_ 1 1#1
  let main_v7 : IVec S_ 1 := (fun x v => Host.reduce IntOp.andi x v reducesTo_S140x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x140 : Shape := ⟨2, ![50000, 140]⟩
abbrev S2x800000 : Shape := ⟨2, ![2, 800000]⟩
abbrev S50000 : Shape := ⟨1, ![50000]⟩
abbrev S140x128 : Shape := ⟨2, ![140, 128]⟩
abbrev S128 : Shape := ⟨1, ![128]⟩
abbrev S128x128 : Shape := ⟨2, ![128, 128]⟩
abbrev S128x73 : Shape := ⟨2, ![128, 73]⟩
abbrev S73 : Shape := ⟨1, ![73]⟩
abbrev S73x41 : Shape := ⟨2, ![73, 41]⟩
abbrev S41 : Shape := ⟨1, ![41]⟩
abbrev S41x24 : Shape := ⟨2, ![41, 24]⟩
abbrev S24 : Shape := ⟨1, ![24]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x140 : Shape := ⟨2, ![5000, 140]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S64x128 : Shape := ⟨2, ![64, 128]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩
abbrev S1x73 : Shape := ⟨2, ![1, 73]⟩
abbrev S1x41 : Shape := ⟨2, ![1, 41]⟩
abbrev S1x24 : Shape := ⟨2, ![1, 24]⟩
abbrev S64x24 : Shape := ⟨2, ![64, 24]⟩
abbrev S64x73 : Shape := ⟨2, ![64, 73]⟩
abbrev S64x41 : Shape := ⟨2, ![64, 41]⟩

abbrev nBuf : Space → Nat
  | .hbm => 143
  | .vmem => 38
  | .smem => 0
  | _ => 0

abbrev hbmTy0_0 (i : Nat) : BufTy := match i % 128 with
  | 0 => ⟨S50000x140, .f32⟩
  | 1 => ⟨S2x800000, .i32⟩
  | 2 => ⟨S50000, .i32⟩
  | 3 => ⟨S140x128, .f32⟩
  | 4 => ⟨S128, .f32⟩
  | 5 => ⟨S128x128, .f32⟩
  | 6 => ⟨S128, .f32⟩
  | 7 => ⟨S128x73, .f32⟩
  | 8 => ⟨S73, .f32⟩
  | 9 => ⟨S73x41, .f32⟩
  | 10 => ⟨S41, .f32⟩
  | 11 => ⟨S41x24, .f32⟩
  | 12 => ⟨S24, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x1, .i32⟩
  | 126 => ⟨S64x128, .f32⟩
  | 127 => ⟨S_, .f32⟩
  | _ => ⟨S50000x140, .f32⟩

abbrev hbmTy0_1 (i : Nat) : BufTy := match i % 128 with
  | 0 => ⟨S50000, .f32⟩
  | 1 => ⟨S_, .f32⟩
  | 2 => ⟨S64, .f32⟩
  | 3 => ⟨S50000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S1x73, .f32⟩
  | 12 => ⟨S1x41, .f32⟩
  | 13 => ⟨S1x24, .f32⟩
  | 14 => ⟨S64x24, .f32⟩
  | _ => ⟨S50000x140, .f32⟩

abbrev hbmTy (i : Nat) : BufTy := match i / 128 with
  | 0 => hbmTy0_0 i
  | 1 => hbmTy0_1 i
  | _ => ⟨S50000x140, .f32⟩

abbrev bufTy : (tb : Table) → Fin (tcTables nBuf tb) → BufTy
  | .hbm, ⟨i, _⟩ => hbmTy i
  | .local _ .vmem, ⟨0, _⟩ => ⟨S5000x140, .f32⟩
  | .local _ .vmem, ⟨1, _⟩ => ⟨S5000x140, .f32⟩
  | .local _ .vmem, ⟨2, _⟩ => ⟨S140x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x1, .i32⟩
  | .local _ .vmem, ⟨27, _⟩ => ⟨S5000x1, .i32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S128x73, .f32⟩
  | .local _ .vmem, ⟨32, _⟩ => ⟨S1x73, .f32⟩
  | .local _ .vmem, ⟨33, _⟩ => ⟨S73x41, .f32⟩
  | .local _ .vmem, ⟨34, _⟩ => ⟨S1x41, .f32⟩
  | .local _ .vmem, ⟨35, _⟩ => ⟨S41x24, .f32⟩
  | .local _ .vmem, ⟨36, _⟩ => ⟨S1x24, .f32⟩
  | .local _ .vmem, ⟨37, _⟩ => ⟨S64x24, .f32⟩
  | _, _ => ⟨S50000x140, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_15 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc5_sem0_0 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem6_0 : DmaSem sig := 35
abbrev cc5_sem7_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x140 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S140x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x73 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x73 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S73x41 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x41 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S41x24 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x24 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x24 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x140_S5000x140_0_0 : ∀ a, (![0, 0] : Fin 2 → Nat) a + S5000x140.size a ≤ S5000x140.size a
  h_S5000x140 : 0 < S5000x140.numel
  bitsLt_bf16_f32 : FTy.bits .bf16 < FTy.bits .f32
  inb_S140x128_S140x128_0_0 : ∀ a, (![0, 0] : Fin 2 → Nat) a + S140x128.size a ≤ S140x128.size a
  h_S140x128 : 0 < S140x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S50000_S50000x1 : S50000.ShapeCasts S50000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  natLt_1_32 : 1 < 32
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S73_S1x73 : S73.ShapeCasts S1x73
  shapeCasts_S41_S1x41 : S41.ShapeCasts S1x41
  shapeCasts_S24_S1x24 : S24.ShapeCasts S1x24
  inb_S128x73_S128x73_0_0 : ∀ a, (![0, 0] : Fin 2 → Nat) a + S128x73.size a ≤ S128x73.size a
  h_S128x73 : 0 < S128x73.numel
  inb_S1x73_S1x73_0_0 : ∀ a, (![0, 0] : Fin 2 → Nat) a + S1x73.size a ≤ S1x73.size a
  h_S1x73 : 0 < S1x73.numel
  shapeCasts_S1x73_S1x73 : S1x73.ShapeCasts S1x73
  broadcasts_S1x73_S64x73 : S1x73.Broadcasts S64x73
  inb_S73x41_S73x41_0_0 : ∀ a, (![0, 0] : Fin 2 → Nat) a + S73x41.size a ≤ S73x41.size a
  h_S73x41 : 0 < S73x41.numel
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S64x41 : S1x41.Broadcasts S64x41
  inb_S41x24_S41x24_0_0 : ∀ a, (![0, 0] : Fin 2 → Nat) a + S41x24.size a ≤ S41x24.size a
  h_S41x24 : 0 < S41x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S64x24 : S1x24.Broadcasts S64x24
  inb_S64x24_S64x24_0_0 : ∀ a, (![0, 0] : Fin 2 → Nat) a + S64x24.size a ≤ S64x24.size a
  h_S64x24 : 0 < S64x24.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x140_S140x128_S5000x128_1_0_0_1_n_n_wf : DotDims.WF S5000x140 S140x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  dot_S64x128_S128x73_S64x73_1_0_0_1_n_n_wf : DotDims.WF S64x128 S128x73 S64x73 [1] [0] [0] [1] [] []
  dot_S64x73_S73x41_S64x41_1_0_0_1_n_n_wf : DotDims.WF S64x73 S73x41 S64x41 [1] [0] [0] [1] [] []
  dot_S64x41_S41x24_S64x24_1_0_0_1_n_n_wf : DotDims.WF S64x41 S41x24 S64x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x140.size a ≤ S50000x140.size a
  hwx0_0 : ∀ i : grid0.Coords, EltTy.bits .f32 = 32 ∨ (Rect.block (s := S50000x140) S5000x140.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S140x128.size a ≤ S140x128.size a
  hwx0_1 : ∀ i : grid0.Coords, EltTy.bits .f32 = 32 ∨ (Rect.block (s := S140x128) S140x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .i32 = 32 ∨ (Rect.block (s := S50000x1) S5000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x128.size a ≤ S64x128.size a
  hwx5_0 : ∀ i : grid5.Coords, EltTy.bits .f32 = 32 ∨ (Rect.block (s := S64x128) S64x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x73.size a ≤ S128x73.size a
  hwx5_1 : ∀ i : grid5.Coords, EltTy.bits .f32 = 32 ∨ (Rect.block (s := S128x73) S128x73.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x73.size a ≤ S1x73.size a
  hwx5_2 : ∀ i : grid5.Coords, EltTy.bits .f32 = 32 ∨ (Rect.block (s := S1x73) S1x73.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S73x41.size a ≤ S73x41.size a
  hwx5_3 : ∀ i : grid5.Coords, EltTy.bits .f32 = 32 ∨ (Rect.block (s := S73x41) S73x41.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x41.size a ≤ S1x41.size a
  hwx5_4 : ∀ i : grid5.Coords, EltTy.bits .f32 = 32 ∨ (Rect.block (s := S1x41) S1x41.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S41x24.size a ≤ S41x24.size a
  hwx5_5 : ∀ i : grid5.Coords, EltTy.bits .f32 = 32 ∨ (Rect.block (s := S41x24) S41x24.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x24.size a ≤ S1x24.size a
  hwx5_6 : ∀ i : grid5.Coords, EltTy.bits .f32 = 32 ∨ (Rect.block (s := S1x24) S1x24.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x24.size a ≤ S64x24.size a
  hwx5_7 : ∀ i : grid5.Coords, EltTy.bits .f32 = 32 ∨ (Rect.block (s := S64x24) S64x24.size (cc5_transform_7 i) (hinb5_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x140_S140x128_S5000x128_1_0_0_1_n_n : DotDims S5000x140 S140x128 S5000x128 where
  lhsContracting := [1]
  rhsContracting := [0]
  lhsNonContracting := [0]
  rhsNonContracting := [1]
  lhsBatch := []
  rhsBatch := []
  wf := dot_S5000x140_S140x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x73_S64x73_1_0_0_1_n_n : DotDims S64x128 S128x73 S64x73 where
  lhsContracting := [1]
  rhsContracting := [0]
  lhsNonContracting := [0]
  rhsNonContracting := [1]
  lhsBatch := []
  rhsBatch := []
  wf := dot_S64x128_S128x73_S64x73_1_0_0_1_n_n_wf
def dot_S64x73_S73x41_S64x41_1_0_0_1_n_n : DotDims S64x73 S73x41 S64x41 where
  lhsContracting := [1]
  rhsContracting := [0]
  lhsNonContracting := [0]
  rhsNonContracting := [1]
  lhsBatch := []
  rhsBatch := []
  wf := dot_S64x73_S73x41_S64x41_1_0_0_1_n_n_wf
def dot_S64x41_S41x24_S64x24_1_0_0_1_n_n : DotDims S64x41 S41x24 S64x24 where
  lhsContracting := [1]
  rhsContracting := [0]
  lhsNonContracting := [0]
  rhsNonContracting := [1]
  lhsBatch := []
  rhsBatch := []
  wf := dot_S64x41_S41x24_S64x24_1_0_0_1_n_n_wf

abbrev win0_0 : Pipeline.Window sig grid0 :=
  Pipeline.Window.ofSpec (Memref.whole main_arg0) S5000x140.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S140x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v91) S64x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v100) S64x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x73.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x73.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S73x41.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S1x41.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S41x24.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v103) S1x24.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v104) S64x24.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x140 : Shape := ⟨2, ![50000, 140]⟩
abbrev S2x800000 : Shape := ⟨2, ![2, 800000]⟩
abbrev S50000 : Shape := ⟨1, ![50000]⟩
abbrev S140x128 : Shape := ⟨2, ![140, 128]⟩
abbrev S128 : Shape := ⟨1, ![128]⟩
abbrev S128x128 : Shape := ⟨2, ![128, 128]⟩
abbrev S128x73 : Shape := ⟨2, ![128, 73]⟩
abbrev S73 : Shape := ⟨1, ![73]⟩
abbrev S73x41 : Shape := ⟨2, ![73, 41]⟩
abbrev S41 : Shape := ⟨1, ![41]⟩
abbrev S41x24 : Shape := ⟨2, ![41, 24]⟩
abbrev S24 : Shape := ⟨1, ![24]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x73 : Shape := ⟨2, ![64, 73]⟩
abbrev S1x73 : Shape := ⟨2, ![1, 73]⟩
abbrev S64x41 : Shape := ⟨2, ![64, 41]⟩
abbrev S1x41 : Shape := ⟨2, ![1, 41]⟩
abbrev S64x24 : Shape := ⟨2, ![64, 24]⟩
abbrev S1x24 : Shape := ⟨2, ![1, 24]⟩

abbrev nBuf : Space → Nat
  | .hbm => 182
  | .vmem => 0
  | .smem => 0
  | _ => 0

abbrev hbmTy0_0 (i : Nat) : BufTy := match i % 128 with
  | 0 => ⟨S50000x140, .f32⟩
  | 1 => ⟨S2x800000, .i32⟩
  | 2 => ⟨S50000, .i32⟩
  | 3 => ⟨S140x128, .f32⟩
  | 4 => ⟨S128, .f32⟩
  | 5 => ⟨S128x128, .f32⟩
  | 6 => ⟨S128, .f32⟩
  | 7 => ⟨S128x73, .f32⟩
  | 8 => ⟨S73, .f32⟩
  | 9 => ⟨S73x41, .f32⟩
  | 10 => ⟨S41, .f32⟩
  | 11 => ⟨S41x24, .f32⟩
  | 12 => ⟨S24, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x140, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .f32⟩
  | 18 => ⟨S64x128, .f32⟩
  | 19 => ⟨S50000x1, .i32⟩
  | 20 => ⟨S64x128, .f32⟩
  | 21 => ⟨S_, .f32⟩
  | 22 => ⟨S50000, .f32⟩
  | 23 => ⟨S_, .f32⟩
  | 24 => ⟨S64, .f32⟩
  | 25 => ⟨S50000x1, .i32⟩
  | 26 => ⟨S64, .f32⟩
  | 27 => ⟨S_, .f32⟩
  | 28 => ⟨S64, .f32⟩
  | 29 => ⟨S64, .f32⟩
  | 30 => ⟨S64x1, .f32⟩
  | 31 => ⟨S64x128, .f32⟩
  | 32 => ⟨S64x128, .f32⟩
  | 33 => ⟨S64x73, .f32⟩
  | 34 => ⟨S1x73, .f32⟩
  | 35 => ⟨S64x73, .f32⟩
  | 36 => ⟨S64x73, .f32⟩
  | 37 => ⟨S_, .f32⟩
  | 38 => ⟨S64x73, .f32⟩
  | 39 => ⟨S64x73, .f32⟩
  | 40 => ⟨S64x41, .f32⟩
  | 41 => ⟨S1x41, .f32⟩
  | 42 => ⟨S64x41, .f32⟩
  | 43 => ⟨S64x41, .f32⟩
  | 44 => ⟨S_, .f32⟩
  | 45 => ⟨S64x41, .f32⟩
  | 46 => ⟨S64x41, .f32⟩
  | 47 => ⟨S64x24, .f32⟩
  | 48 => ⟨S1x24, .f32⟩
  | 49 => ⟨S64x24, .f32⟩
  | 50 => ⟨S64x24, .f32⟩
  | 51 => ⟨S_, .f32⟩
  | 52 => ⟨S64x24, .f32⟩
  | 53 => ⟨S64x24, .f32⟩
  | _ => ⟨S50000x140, .f32⟩

abbrev hbmTy (i : Nat) : BufTy := match i / 128 with
  | 0 => hbmTy0_0 i
  | 1 => hbmTy0_1 i
  | _ => ⟨S50000x140, .f32⟩

abbrev bufTy : (tb : Table) → Fin (tcTables nBuf tb) → BufTy
  | .hbm, ⟨i, _⟩ => hbmTy i
  | _, _ => ⟨S50000x140, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_c_15 : Ref sig .tc := ⟨.hbm, 123, rfl⟩
abbrev main_v85 : Ref sig .tc := ⟨.hbm, 124, rfl⟩
abbrev main_v86 : Ref sig .tc := ⟨.hbm, 125, rfl⟩
abbrev main_c_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_17 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call4_cst : Ref sig .tc := ⟨.hbm, 142, rfl⟩
abbrev main_call4_v0 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_cst_20 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_21 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_call5_cst : Ref sig .tc := ⟨.hbm, 165, rfl⟩
abbrev main_call5_v0 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call6_cst : Ref sig .tc := ⟨.hbm, 172, rfl⟩
abbrev main_call6_v0 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_call7_cst : Ref sig .tc := ⟨.hbm, 179, rfl⟩
abbrev main_call7_v0 : Ref sig .tc := ⟨.hbm, 180, rfl⟩
abbrev main_v128 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S73_S1x73_1 : S73.BroadcastsInDim S1x73 (![1] : Fin 1 → Fin S1x73.rank)
  bcast_S1x73_S64x73_0_1 : S1x73.BroadcastsInDim S64x73 (![0, 1] : Fin 2 → Fin S64x73.rank)
  bcast_S_S64x73 : S_.BroadcastsInDim S64x73 (![] : Fin 0 → Fin S64x73.rank)
  bcast_S41_S1x41_1 : S41.BroadcastsInDim S1x41 (![1] : Fin 1 → Fin S1x41.rank)
  bcast_S1x41_S64x41_0_1 : S1x41.BroadcastsInDim S64x41 (![0, 1] : Fin 2 → Fin S64x41.rank)
  bcast_S_S64x41 : S_.BroadcastsInDim S64x41 (![] : Fin 0 → Fin S64x41.rank)
  bcast_S24_S1x24_1 : S24.BroadcastsInDim S1x24 (![1] : Fin 1 → Fin S1x24.rank)
  bcast_S1x24_S64x24_0_1 : S1x24.BroadcastsInDim S64x24 (![0, 1] : Fin 2 → Fin S64x24.rank)
  bcast_S_S64x24 : S_.BroadcastsInDim S64x24 (![] : Fin 0 → Fin S64x24.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x140_S140x128_S50000x128_1_0_0_1_n_n_wf : DotDims.WF S50000x140 S140x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x73_S64x73_1_0_0_1_n_n_wf : DotDims.WF S64x128 S128x73 S64x73 [1] [0] [0] [1] [] []
  dot_S64x73_S73x41_S64x41_1_0_0_1_n_n_wf : DotDims.WF S64x73 S73x41 S64x41 [1] [0] [0] [1] [] []
  dot_S64x41_S41x24_S64x24_1_0_0_1_n_n_wf : DotDims.WF S64x41 S41x24 S64x24 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x140_S140x128_S50000x128_1_0_0_1_n_n : DotDims S50000x140 S140x128 S50000x128 where
  lhsContracting := [1]
  rhsContracting := [0]
  lhsNonContracting := [0]
  rhsNonContracting := [1]
  lhsBatch := []
  rhsBatch := []
  wf := dot_S50000x140_S140x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x73_S64x73_1_0_0_1_n_n : DotDims S64x128 S128x73 S64x73 where
  lhsContracting := [1]
  rhsContracting := [0]
  lhsNonContracting := [0]
  rhsNonContracting := [1]
  lhsBatch := []
  rhsBatch := []
  wf := dot_S64x128_S128x73_S64x73_1_0_0_1_n_n_wf
def dot_S64x73_S73x41_S64x41_1_0_0_1_n_n : DotDims S64x73 S73x41 S64x41 where
  lhsContracting := [1]
  rhsContracting := [0]
  lhsNonContracting := [0]
  rhsNonContracting := [1]
  lhsBatch := []
  rhsBatch := []
  wf := dot_S64x73_S73x41_S64x41_1_0_0_1_n_n_wf
def dot_S64x41_S41x24_S64x24_1_0_0_1_n_n : DotDims S64x41 S41x24 S64x24 where
  lhsContracting := [1]
  rhsContracting := [0]
  lhsNonContracting := [0]
  rhsNonContracting := [1]
  lhsBatch := []
  rhsBatch := []
  wf := dot_S64x41_S41x24_S64x24_1_0_0_1_n_n_wf

class Facts : Prop extends Facts₀ where

variable [Facts]
-- ==== Proof.KB.Reg0.lean ====
import proofs.«431055_j50766513438884_1_alg».proof.Proof.Gen.Kernel.Launch
import proofs.«431055_j50766513438884_1_alg».proof.Proof.Gen.Kernel.Skeleton
import proofs.«431055_j50766513438884_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable abbrev r0_S5000x140 : Rect S5000x140 := Rect.unit (s := S5000x140) ![0, 0] S5000x140.size inb_S5000x140_S5000x140_0_0
noncomputable abbrev r0_S140x128 : Rect S140x128 := Rect.unit (s := S140x128) ![0, 0] S140x128.size inb_S140x128_S140x128_0_0
noncomputable abbrev r0_S5000x128 : Rect S5000x128 := Rect.unit (s := S5000x128) ![0, 0] S5000x128.size inb_S5000x128_S5000x128_0_0

noncomputable def out0_2 (x0 : Vec F S5000x140 .f32) (x1 : Vec F S140x128 .f32) : Vec F S5000x128 .f32 :=
  View.canon [⟨r0_S5000x128, k0_pay1 (View.ld x0 r0_S5000x140) (View.ld x1 r0_S140x128)⟩]

/-- The body reads its inputs and stores once, through a rectangle that covers the output block. -/
theorem sound_kernel0 (c : Dev nD) (E : Set ℕ) (i : grid0.Coords) (arg1 : Memref sig .tc .vmem S5000x140 .f32) (harg1 : arg1.IsWhole) (arg2 : Memref sig .tc .vmem S140x128 .f32) (harg2 : arg2.IsWhole) (arg3 : Memref sig .tc .vmem S5000x128 .f32) (harg3 : arg3.IsWhole)
    (x0 : Vec F S5000x140 .f32) (x1 : Vec F S140x128 .f32) (K : PUnit → sProp 𝕄) :
    let I : sProp 𝕄 := iprop(owns c arg1 fullShare x0 ∗ owns c arg2 fullShare x1)
    iprop(I ∗ (∃ d, owns c arg3 fullShare d) ∗ (iprop(I ∗ owns c arg3 fullShare (out0_2 x0 x1)) -∗ K ⟨⟩))
      ⊢ wp frame (wpE defs₀ Variants.none c none) E (cc0__matmul_kernel i arg1 harg1 arg2 harg2 arg3 harg3) K := by
  simp only [cc0__matmul_kernel_eq_skeleton, owns_eq_rep]; unfold cc0__matmul_kernel_skel
  iintro ⟨⟨H0, H1⟩, ⟨%dO, HO⟩, Hk⟩
  sl_exec
  sl_step
  iapply Hk
  iframe H0 H1
  rw [← owns_eq_rep]; unfold owns
  iexists _; isplitr
  swap; · iexact HO
  ipureintro
  rw [View.read_writes_eq_canon _ _ _ (View.cover_of_tiled [⟨r0_S5000x128, _⟩] S5000x128.size (by rfl))]
  simp only [View.readAt_eq_ld, View.read_rep]; rfl

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

/-- The body leaves an input window as it finds it, so what it finds there is what it leaves. -/
theorem before0 (c : Dev nD) : ∀ w : Fin cfg0.W, (cfg0.win w).isOut = false → ∀ t d, (dat0 V c).before w t d = (dat0 V c).after w t := by
  intro w; fin_cases w <;> intro hw t d
  all_goals first
    | exact absurd hw (by decide)
    | exact ((dat0 V c).before_in_eq_fetched _ hw (fun _ => rfl) (fun _ _ _ => rfl)
        (fun _ => by dsimp only [dat0]; rfl) t d).trans (by dsimp only [dat0]; rfl)

theorem body_obligation0 (c : Dev nD) : BodyObligation (dat0 (F := F) V c) (defs₀ (F := F)) Variants.none () Set.univ := fun t => by
  rw [bigSep_W0, bigSep_W0]
  show _ ⊢ wp _ _ _ (bodyAt0 t) _
  simp (disch := rfl) only [before0 V c]
  rw [show (dat0 V c).owesAt () t.succ = (dat0 V c).owesAt () t.castSucc from rfl]
  dsimp only [dat0, bodyAt0, st0_0, st0_1, st0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨⟨H0, H1⟩, H2⟩
  iframe

end Cert.Kernel.Hand

end
-- ==== Proof.KB.Reg1.lean ====
/- Regions 1 to 3: a row tile of relu(a + b) · W per grid point; the inputs are only read, the output block is stored whole. -/
import proofs.«431055_j50766513438884_1_alg».proof.Proof.Gen.Kernel.Launch
import proofs.«431055_j50766513438884_1_alg».proof.Proof.Gen.Kernel.Skeleton
import proofs.«431055_j50766513438884_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev r1_a : Rect S5000x128 := Rect.unit (s := S5000x128) ![0, 0] S5000x128.size inb_S5000x128_S5000x128_0_0
noncomputable abbrev r1_b : Rect S1x128 := Rect.unit (s := S1x128) ![0, 0] S1x128.size inb_S1x128_S1x128_0_0
noncomputable abbrev r1_w : Rect S128x128 := Rect.unit (s := S128x128) ![0, 0] S128x128.size inb_S128x128_S128x128_0_0

noncomputable def out1_3 (x0 : Vec F S5000x128 .f32) (x1 : Vec F S1x128 .f32) (x2 : Vec F S128x128 .f32) : Vec F S5000x128 .f32 :=
  View.canon [⟨r1_a, k1_pay1 (View.ld x0 r1_a) (View.ld x1 r1_b) (View.ld x2 r1_w)⟩]

set_option maxHeartbeats 1000000 in

theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton, owns_eq_rep]; unfold cc1__bias_relu_matmul_kernel_skel
  iintro ⟨H0, H1, H2, ⟨%d3, H3⟩, Hk⟩
  sl_exec
  sl_step
  iapply Hk
  iframe H0 H1 H2
  rw [← owns_eq_rep]; unfold owns
  iexists _; isplitr
  swap; · iexact H3
  ipureintro
  rw [View.read_writes_eq_canon _ _ _ (View.cover_of_tiled [⟨r1_a, _⟩] S5000x128.size (by rfl))]
  simp only [View.readAt_eq_ld, View.read_rep]; rfl

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t)
    ∧ (∀ d, (dat1 V c).before 1 t d = iblk1 V c 1 t) ∧ (∀ d, (dat1 V c).before 2 t d = iblk1 V c 2 t) := by
  refine ⟨fun d => ?_, fun d => ?_, fun d => ?_⟩ <;>
    exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [(before1 V c t).1, (before1 V c t).2.1, (before1 V c t).2.2]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.KB.Reg2.lean ====
/- Region 2: the kernel of region 1 on other arrays. -/
import proofs.«431055_j50766513438884_1_alg».proof.Proof.KB.Reg1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out1_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out1_3 (iblk2 V c 0 t) (iblk2 V c 1 t) (iblk2 V c 2 t) := by dsimp only [dat2]

theorem before2 (c : Dev nD) (t : Fin cfg2.N) : (∀ d, (dat2 V c).before 0 t d = iblk2 V c 0 t)
    ∧ (∀ d, (dat2 V c).before 1 t d = iblk2 V c 1 t) ∧ (∀ d, (dat2 V c).before 2 t d = iblk2 V c 2 t) := by
  refine ⟨fun d => ?_, fun d => ?_, fun d => ?_⟩ <;>
    exact ((dat2 V c).before_in_eq_fetched _ rfl (fun _ => rfl) (fun _ _ _ => rfl) (fun _ => rfl) t d).trans rfl

theorem cc2_eq : cc2__bias_relu_matmul_kernel (F := F) = cc1__bias_relu_matmul_kernel (F := F) := rfl

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2; rw [cc2_eq]
  simp only [(before2 V c t).1, (before2 V c t).2.1, (before2 V c t).2.2]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩⟩
  iapply (sound_kernel1 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.KB.Reg3.lean ====
/- Region 3: the kernel of region 1 on other arrays. -/
import proofs.«431055_j50766513438884_1_alg».proof.Proof.KB.Reg1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out1_3 (iblk3 V c 0 t) (iblk3 V c 1 t) (iblk3 V c 2 t) := by dsimp only [dat3]

theorem before3 (c : Dev nD) (t : Fin cfg3.N) : (∀ d, (dat3 V c).before 0 t d = iblk3 V c 0 t)
    ∧ (∀ d, (dat3 V c).before 1 t d = iblk3 V c 1 t) ∧ (∀ d, (dat3 V c).before 2 t d = iblk3 V c 2 t) := by
  refine ⟨fun d => ?_, fun d => ?_, fun d => ?_⟩ <;>
    exact ((dat3 V c).before_in_eq_fetched _ rfl (fun _ => rfl) (fun _ _ _ => rfl) (fun _ => rfl) t d).trans rfl

theorem cc3_eq : cc3__bias_relu_matmul_kernel (F := F) = cc1__bias_relu_matmul_kernel (F := F) := rfl

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3; rw [cc3_eq]
  simp only [(before3 V c t).1, (before3 V c t).2.1, (before3 V c t).2.2]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩⟩
  iapply (sound_kernel1 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.KB.Reg4.lean ====
import proofs.«431055_j50766513438884_1_alg».proof.Proof.Gen.Kernel.Launch
import proofs.«431055_j50766513438884_1_alg».proof.Proof.Gen.Kernel.Skeleton
import proofs.«431055_j50766513438884_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def acc4 (c : Dev nD) : (n : ℕ) → n < cfg4.N → Vec F S64x128 .f32
  | 0, h => k4_pay2 (iblk4 V c 0 ⟨0, h⟩) (iblk4 V c 1 ⟨0, h⟩) (iblk4 V c 2 ⟨0, h⟩) (k4_pay1 (F := F))
  | n + 1, h => k4_pay2 (iblk4 V c 0 ⟨n + 1, h⟩) (iblk4 V c 1 ⟨n + 1, h⟩) (iblk4 V c 2 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) (iblk4 V c 2 ⟨0, h⟩) (k4_pay1 (F := F)) := by
  rw [acc4]

theorem acc4_succ (c : Dev nD) (n : ℕ) (h : n + 1 < cfg4.N) :
    acc4 V c (n + 1) h = k4_pay2 (iblk4 V c 0 ⟨n + 1, h⟩) (iblk4 V c 1 ⟨n + 1, h⟩) (iblk4 V c 2 ⟨n + 1, h⟩) (acc4 V c n (Nat.lt_of_succ_lt h)) := by
  rw [acc4]

theorem acc4_first (c : Dev nD) (t : Fin cfg4.N) (hz : t.val = 0) :
    acc4 V c t.val t.isLt = k4_pay2 (iblk4 V c 0 t) (iblk4 V c 1 t) (iblk4 V c 2 t) k4_pay1 := by
  obtain ⟨_ | n, hn⟩ := t
  · exact acc4_zero V c hn
  · exact absurd hz (Nat.succ_ne_zero n)

theorem acc4_later (c : Dev nD) (t : Fin cfg4.N) (hz : t.val ≠ 0) :
    acc4 V c t.val t.isLt = k4_pay2 (iblk4 V c 0 t) (iblk4 V c 1 t) (iblk4 V c 2 t)
      (acc4 V c (t.val - 1) (Nat.lt_of_le_of_lt (Nat.sub_le _ _) t.isLt)) := by
  obtain ⟨_ | n, hn⟩ := t
  · exact absurd rfl hz
  · exact acc4_succ V c n hn

noncomputable abbrev scM4 : Memref sig .tc .vmem S64x128 .f32 := Memref.whole cc4_scratch0

/-- The invariant carried from point to point, with the running sum held as `P`. -/
noncomputable abbrev inv4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

noncomputable def Phi4 (c : Dev nD) : (n : ℕ) → n ≤ cfg4.N → sProp 𝕄
  | 0, _ => Pipeline.ΦA spec4 c
  | n + 1, hn => inv4 c (owns c scM4 fullShare (acc4 V c n hn))

theorem Phi4_zero (c : Dev nD) (n : ℕ) (h : n ≤ cfg4.N) (hz : n = 0) : Phi4 V c n h = Pipeline.ΦA spec4 c := by
  subst hz; rfl

theorem Phi4_pos (c : Dev nD) (n : ℕ) (h : n ≤ cfg4.N) (hz : n ≠ 0) :
    Phi4 V c n h = inv4 c (owns c scM4 fullShare (acc4 V c (n - 1) (by omega))) := by
  cases n with
  | zero => exact absurd rfl hz
  | succ n => rfl

theorem PhiA4_eq (c : Dev nD) : (Pipeline.ΦA spec4 c : sProp 𝕄) = inv4 c iprop(∃ d, owns c scM4 fullShare d) := by
  unfold Pipeline.ΦA; rw [scopedRest4_split]; simp only [scM4, owns_whole]; try rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = acc4 V c t.val t.isLt := by dsimp only [dat4]

/-- The body leaves an input window as it finds it, so what it finds there is what it leaves. -/
theorem before4 (c : Dev nD) : ∀ w : Fin cfg4.W, (cfg4.win w).isOut = false → ∀ t d, (dat4 V c).before w t d = (dat4 V c).after w t := by
  intro w; fin_cases w <;> intro hw t d
  all_goals first
    | exact absurd hw (by decide)
    | exact ((dat4 V c).before_in_eq_fetched _ hw (fun _ => rfl) (fun _ _ _ => rfl)
        (fun _ => by dsimp only [dat4]; rfl) t d).trans (by dsimp only [dat4]; rfl)

theorem zero2 : (![0, 0] : Fin 2 → ℕ) = fun _ => 0 := funext fun a => by fin_cases a <;> rfl

noncomputable abbrev r4_acc : Rect S64x128 := Rect.unit (s := S64x128) ![0, 0] S64x128.size inb_S64x128_S64x128_0_0

theorem cover4 (p0 : Vec F S64x128 .f32) (L : List (View.Piece (Elt F) S64x128 .f32)) (y : S64x128.Idx) :
    ∃ pc ∈ ((⟨r4_acc, p0⟩ : View.Piece (Elt F) S64x128 .f32) :: L), y ∈ pc.1.set :=
  ⟨_, List.mem_cons_self, View.mem_set_unit_zero zero2 inb_S64x128_S64x128_0_0 y⟩

noncomputable abbrev cond4 (i : grid4.Coords) : Prop := (Scalar.cmpi .ne (Scalar.extui (Scalar.cmpi .eq (BitVec.ofNat 32 (i 0).val) 0#32)) 0#32) = 1#1

theorem hcond4 : ∀ t : Fin cfg4.N, cond4 (grid4.coords t) ↔ t.val = 0 :=
  (by decide +kernel : ∀ t : Fin grid4.N, cond4 (grid4.coords t) ↔ t.val = 0)

/-- The sum starts from zero at the first point and from the sum so far afterwards; the point's contribution is added and the result copied out. -/
theorem sound_kernel4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S5000x1 .i32) (harg3 : arg3.IsWhole) (arg4 : Memref sig .tc .vmem S64x128 .f32) (harg4 : arg4.IsWhole)
    (arg5 : Memref sig .tc .vmem S64x128 .f32) (harg5 : arg5.IsWhole)
    (x0 : Vec F S5000x128 .f32) (x1 : Vec F S1x128 .f32) (x2 : Vec F S5000x1 .i32) (xs : Vec F S64x128 .f32) (K : PUnit → sProp 𝕄) :
    let I : sProp 𝕄 := iprop(owns c arg1 fullShare x0 ∗ owns c arg2 fullShare x1 ∗ owns c arg3 fullShare x2)
    let s := k4_pay2 x0 x1 x2 (if cond4 i then k4_pay1 else xs)
    iprop(I ∗ (∃ d, owns c arg4 fullShare d) ∗ owns c arg5 fullShare xs ∗ (iprop(I ∗ owns c arg4 fullShare s ∗ owns c arg5 fullShare s) -∗ K ⟨⟩))
      ⊢ wp frame (wpE defs₀ Variants.none c none) E (cc4__bias_relu_pool_kernel i arg1 harg1 arg2 harg2 arg3 harg3 arg4 harg4 arg5 harg5) K := by
  simp only [cc4__bias_relu_pool_kernel_eq_skeleton, owns_eq_rep]; unfold cc4__bias_relu_pool_kernel_skel
  iintro ⟨⟨H0, H1, H2⟩, ⟨%d3, H3⟩, H4, Hk⟩
  by_cases hc : cond4 i
  all_goals
    first | rw [if_pos hc] | rw [if_neg hc]
    sl_exec (disch := exact hc)
    sl_step
    iapply Hk
    iframe H0 H1 H2
    isplitl [H3]
    all_goals
      rw [← owns_eq_rep]; unfold owns
      iexists _; isplitr
      swap; · iassumption
      ipureintro
      sl_unfold_run_names
      rw [View.read_writes_eq_canon _ _ _ (cover4 _ _)]
      simp only [View.canon_cons_unit_zero (S := S64x128) zero2, View.readCov_cons_toLoadRect, View.readAt_eq_ld, View.read_rep, View.ld_unit_zero (S := S5000x128) zero2,
        View.ld_unit_zero (S := S1x128) zero2, View.ld_unit_zero (S := S5000x1) zero2, View.ld_unit_zero (S := S64x128) zero2]

theorem body_obligation4 (c : Dev nD) : BodyObligation (dat4 (F := F) V c) (defs₀ (F := F)) Variants.none () Set.univ := fun t => by
  rw [bigSep_W4, bigSep_W4]
  show _ ⊢ wp _ _ _ (bodyAt4 t) _
  simp (disch := rfl) only [before4 V c]
  rw [show (dat4 V c).owesAt () t.succ = (dat4 V c).owesAt () t.castSucc from rfl,
    show (dat4 V c).Φ t.succ = inv4 c (owns c scM4 fullShare (acc4 V c t.val t.isLt)) from rfl,
    show (dat4 V c).Φ t.castSucc = Phi4 V c t.val (Nat.le_of_lt t.isLt) from rfl]
  dsimp only [dat4, bodyAt4, st4_0, st4_1, st4_2, st4_3]
  by_cases hz : t.val = 0
  on_goal 1 =>
    rw [Phi4_zero V c _ _ hz, PhiA4_eq, acc4_first V c t hz]
    iintro ⟨⟨⟨⟨%ds, HS⟩, HR⟩, Hg⟩, Ho, ⟨%d0, H0⟩, ⟨%d1, H1⟩, ⟨%d2, H2⟩, ⟨%d3, H3⟩⟩
    iapply (sound_kernel4 c Set.univ _ _ _ _ _ _ _ _ _ _ _ (iblk4 V c 0 t) (iblk4 V c 1 t) (iblk4 V c 2 t) ds _)
    rw [if_pos ((hcond4 t).mpr hz)]
  on_goal 2 =>
    rw [Phi4_pos V c _ _ hz, acc4_later V c t hz]
    iintro ⟨⟨⟨HS, HR⟩, Hg⟩, Ho, ⟨%d0, H0⟩, ⟨%d1, H1⟩, ⟨%d2, H2⟩, ⟨%d3, H3⟩⟩
    iapply (sound_kernel4 c Set.univ _ _ _ _ _ _ _ _ _ _ _ (iblk4 V c 0 t) (iblk4 V c 1 t) (iblk4 V c 2 t) _ _)
    rw [if_neg fun h => hz ((hcond4 t).mp h)]
  all_goals
    iframe H0 H1 H2 HS
    isplitl [H3]; · iexists _; iexact H3
    iintro ⟨⟨H0, H1, H2⟩, H3, HS⟩
    unfold inv4
    iframe

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  show inv4 c (owns c scM4 fullShare (acc4 V c 9 (by decide))) ⊢ _
  unfold inv4
  iintro ⟨⟨HS, HR⟩, Hg⟩
  iframe HR Hg
  iexists _; iexact HS

end Cert.Kernel.Hand

end
-- ==== Proof.KB.Reg5.lean ====
import proofs.«431055_j50766513438884_1_alg».proof.Proof.Gen.Kernel.Launch
import proofs.«431055_j50766513438884_1_alg».proof.Proof.Gen.Kernel.Skeleton
import proofs.«431055_j50766513438884_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable abbrev r5_S64x128 : Rect S64x128 := Rect.unit (s := S64x128) ![0, 0] S64x128.size inb_S64x128_S64x128_0_0
noncomputable abbrev r5_S128x73 : Rect S128x73 := Rect.unit (s := S128x73) ![0, 0] S128x73.size inb_S128x73_S128x73_0_0
noncomputable abbrev r5_S1x73 : Rect S1x73 := Rect.unit (s := S1x73) ![0, 0] S1x73.size inb_S1x73_S1x73_0_0
noncomputable abbrev r5_S73x41 : Rect S73x41 := Rect.unit (s := S73x41) ![0, 0] S73x41.size inb_S73x41_S73x41_0_0
noncomputable abbrev r5_S1x41 : Rect S1x41 := Rect.unit (s := S1x41) ![0, 0] S1x41.size inb_S1x41_S1x41_0_0
noncomputable abbrev r5_S41x24 : Rect S41x24 := Rect.unit (s := S41x24) ![0, 0] S41x24.size inb_S41x24_S41x24_0_0
noncomputable abbrev r5_S1x24 : Rect S1x24 := Rect.unit (s := S1x24) ![0, 0] S1x24.size inb_S1x24_S1x24_0_0
noncomputable abbrev r5_S64x24 : Rect S64x24 := Rect.unit (s := S64x24) ![0, 0] S64x24.size inb_S64x24_S64x24_0_0

noncomputable def out5_7 (x0 : Vec F S64x128 .f32) (x1 : Vec F S128x73 .f32) (x2 : Vec F S1x73 .f32) (x3 : Vec F S73x41 .f32) (x4 : Vec F S1x41 .f32) (x5 : Vec F S41x24 .f32) (x6 : Vec F S1x24 .f32) : Vec F S64x24 .f32 :=
  View.canon [⟨r5_S64x24, k5_pay1 (View.ld x0 r5_S64x128) (View.ld x1 r5_S128x73) (View.ld x2 r5_S1x73) (View.ld x3 r5_S73x41) (View.ld x4 r5_S1x41) (View.ld x5 r5_S41x24) (View.ld x6 r5_S1x24)⟩]

/-- The body reads its inputs and stores once, through a rectangle that covers the output block. -/
theorem sound_kernel5 (c : Dev nD) (E : Set ℕ) (i : grid5.Coords) (arg1 : Memref sig .tc .vmem S64x128 .f32) (harg1 : arg1.IsWhole) (arg2 : Memref sig .tc .vmem S128x73 .f32) (harg2 : arg2.IsWhole) (arg3 : Memref sig .tc .vmem S1x73 .f32) (harg3 : arg3.IsWhole) (arg4 : Memref sig .tc .vmem S73x41 .f32) (harg4 : arg4.IsWhole) (arg5 : Memref sig .tc .vmem S1x41 .f32) (harg5 : arg5.IsWhole) (arg6 : Memref sig .tc .vmem S41x24 .f32) (harg6 : arg6.IsWhole) (arg7 : Memref sig .tc .vmem S1x24 .f32) (harg7 : arg7.IsWhole) (arg8 : Memref sig .tc .vmem S64x24 .f32) (harg8 : arg8.IsWhole)
    (x0 : Vec F S64x128 .f32) (x1 : Vec F S128x73 .f32) (x2 : Vec F S1x73 .f32) (x3 : Vec F S73x41 .f32) (x4 : Vec F S1x41 .f32) (x5 : Vec F S41x24 .f32) (x6 : Vec F S1x24 .f32) (K : PUnit → sProp 𝕄) :
    let I : sProp 𝕄 := iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6)
    iprop(I ∗ (∃ d, owns c arg8 fullShare d) ∗ (iprop(I ∗ owns c arg8 fullShare (out5_7 x0 x1 x2 x3 x4 x5 x6)) -∗ K ⟨⟩))
      ⊢ wp frame (wpE defs₀ Variants.none c none) E (cc5__mlp_kernel i arg1 harg1 arg2 harg2 arg3 harg3 arg4 harg4 arg5 harg5 arg6 harg6 arg7 harg7 arg8 harg8) K := by
  simp only [cc5__mlp_kernel_eq_skeleton, owns_eq_rep]; unfold cc5__mlp_kernel_skel
  iintro ⟨⟨H0, H1, H2, H3, H4, H5, H6⟩, ⟨%dO, HO⟩, Hk⟩
  sl_exec
  sl_step
  iapply Hk
  iframe H0 H1 H2 H3 H4 H5 H6
  rw [← owns_eq_rep]; unfold owns
  iexists _; isplitr
  swap; · iexact HO
  ipureintro
  rw [View.read_writes_eq_canon _ _ _ (View.cover_of_tiled [⟨r5_S64x24, _⟩] S64x24.size (by rfl))]
  simp only [View.readAt_eq_ld, View.read_rep]; rfl

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := rfl

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- The body leaves an input window as it finds it, so what it finds there is what it leaves. -/
theorem before5 (c : Dev nD) : ∀ w : Fin cfg5.W, (cfg5.win w).isOut = false → ∀ t d, (dat5 V c).before w t d = (dat5 V c).after w t := by
  intro w; fin_cases w <;> intro hw t d
  all_goals first
    | exact absurd hw (by decide)
    | exact ((dat5 V c).before_in_eq_fetched _ hw (fun _ => rfl) (fun _ _ _ => rfl)
        (fun _ => by dsimp only [dat5]; rfl) t d).trans (by dsimp only [dat5]; rfl)

theorem body_obligation5 (c : Dev nD) : BodyObligation (dat5 (F := F) V c) (defs₀ (F := F)) Variants.none () Set.univ := fun t => by
  rw [bigSep_W5, bigSep_W5]
  show _ ⊢ wp _ _ _ (bodyAt5 t) _
  simp (disch := rfl) only [before5 V c]
  rw [show (dat5 V c).owesAt () t.succ = (dat5 V c).owesAt () t.castSucc from rfl]
  dsimp only [dat5, bodyAt5, st5_0, st5_1, st5_2, st5_3, st5_4, st5_5, st5_6, st5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro ⟨⟨H0, H1, H2, H3, H4, H5, H6⟩, H7⟩
  iframe

end Cert.Kernel.Hand

end
-- ==== Proof.LibRegion.lean ====
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Lib

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {U : Type} [URA U]
  {Λ₀ : Labels} {P : Type} [Fintype P]

local notation "𝕄" => MT nD τ sig Unit Val ℕ U ℕ

/-- What is carried unchanged from one item of the program to the next. -/
noncomputable abbrev Rr (c : Dev nD) : sProp 𝕄 := iprop((∃ r, prngReg c r) ∗ ∃ W, owes (c : Thread nD τ) (0 : CellTallies nD τ sig Unit) W)

noncomputable abbrev heldAt (V : Dev nD → Valuation τ sig Val) (c : Dev nD) : sProp 𝕄 := StableHlo.held (c : Thread nD τ) (Pipeline.ucRefs τ sig) (V c)

variable {cfgs : P → Cfg sig Λ₀}
  (pdats : (p : P) → (c : Dev nD) → Dat τ Val Unit ℕ U ℕ (Pipeline.pin (fun p => (cfgs p).toPCfg (Val := Val)) (fun p => (cfgs p).toPCfg_adm) p) c)
  {defs₀ : Defs nD τ sig Val Λ₀} {𝒱₀ : Variants} {L : GSem nD τ sig → Finset Unit} {lv : GSem nD τ sig → Unit → ℕ}

/-- A run of host operations as one item of the program, started at the contents `W`. -/
noncomputable abbrev hseg {pcs : P → Pipeline.PCfg sig Λ₀ Val} (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := U) pcs defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The exit contents of region `p` entered at `V`. -/
noncomputable abbrev outV (p : P) (V : Dev nD → Valuation τ sig Val) (c : Dev nD) : Valuation τ sig Val :=
  Pipeline.withArrays (cfgs p).spec c (V c) fun w => (pdats p c).arrAt w (cfgs p).N

set_option backward.isDefEq.respectTransparency.types false in
/-- A kernel region as one item of the program: entered at the contents `V`, left at `outV p V`. -/
noncomputable def regOf (p : P) (la : Pipeline.LaunchFacts (nD := nD) (τ := τ) cfgs p) (V : Dev nD → Valuation τ sig Val)
    (hd : ∀ c, (∀ w, (pdats p c).q w = fullShare) ∧ (∀ t, (pdats p c).owed t = 0) ∧ ∀ x, x ∈ (pdats p c).recorded 0)
    (hA : ∀ c w, (pdats p c).A w = V c (Proc.devRef .tc (Pipeline.arrRef (cfgs p).spec w)))
    (hb : ∀ c, BodyObligation (pdats p c) defs₀ 𝒱₀ () Set.univ)
    (hΦ₀ : ∀ c, Pipeline.ΦA (cfgs p).spec c ⊢ (pdats p c).Φ 0)
    (hΦₙ : ∀ c, (pdats p c).Φ (Fin.last _) ⊢ Pipeline.ΦA (cfgs p).spec c) :
    Pipeline.RegionSeg (fun p => (cfgs p).toPCfg (Val := Val)) (fun p => (cfgs p).toPCfg_adm) pdats () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => (hd c).2.1
  pre c := iprop(heldAt V c ∗ Rr c)
  post c := iprop(heldAt (outV pdats p V) c ∗ Rr c)
  X c := iprop(∃ r, prngReg c r)
  Y c := iprop(∃ r, prngReg c r)
  Z c := Pipeline.unscopedRest (Ix := Unit) (Name := ℕ) (U := U) (Lvl := ℕ) (cfgs p).spec c fun b => V c b
  hentry c := by
    rw [Pipeline.ownSems0_none]
    have hsplit := Pipeline.arrays_of_unscopedBufs (p := p) (fun p => (cfgs p).toPCfg (Val := Val)) (fun p => (cfgs p).toPCfg_adm) pdats la.win la.arr_whole c
      ((pdats p c).share_full (hd c).1) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(hd c).2.1]
      icases HO with ⟨%W, HO⟩; iexists W; isplitr; · ipureintro; exact fun x _ => Or.inl ((hd c).2.2 x)
      iexact HO
    isplitl [Hp]; · iexact Hp
    iexact Hrest
  hin c := (show _ ⊢ Pipeline.ΦA (cfgs p).spec c from by
    unfold Pipeline.ΦA
    iintro ⟨Hp, -, Hr⟩
    isplitl [Hr]; · iexact Hr
    iexact Hp).trans (hΦ₀ c)
  hout c := (hΦₙ c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := p) (fun p => (cfgs p).toPCfg (Val := Val)) (fun p => (cfgs p).toPCfg_adm) (Ix := Unit) (Name := ℕ) (U := U) (Lvl := ℕ)
      la.win la.arr_whole c pdats ((pdats p c).share_full (hd c).1)
      (fun b => V c b) (fun b => outV pdats p V c b) _ (fun w => (Pipeline.withArrays_arr _ la.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.1]
    icases HO with ⟨%W, -, HO⟩; iexists W; iexact HO

section Launch

variable [DecidableEq P] [∀ e, Nonempty (Val e)] {pcs : P → Pipeline.PCfg sig Λ₀ Val} {a : (p : P) → (pcs p).Adm}
  (pdats : (p : P) → (c : Dev nD) → Dat τ Val Unit ℕ (UR sig nD τ) ℕ (Pipeline.pin pcs a p) c)
  {defs₀ : Defs nD τ sig Val Λ₀} {𝒱₀ : Variants}

local notation "𝕄ᵣ" => MT nD τ sig Unit Val ℕ (UR sig nD τ) ℕ

set_option backward.isDefEq.respectTransparency.types false in
/-- Items that chain from the launch memory to the contents `Vₙ` run to a memory that holds `Vₙ`. -/
theorem run_held (phinj : Function.Injective (Pipeline.cellOf (nD := nD) (τ := τ) (Pipeline.pin pcs a)))
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Pipeline.Seg pcs a pdats () defs₀ 𝒱₀ (fun _ => ∅) fun _ _ => 0))
    (hmain : ∀ c, main c = Pipeline.Seg.run segs) (hnd : (Pipeline.Seg.pipes segs).Nodup) (Vₙ : Dev nD → Valuation τ sig Val)
    (hch : Pipeline.Seg.Chains (fun c => iprop(heldAt (fun c b => (s₀ m ρ).mem ((c : Dev nD), b)) c ∗ Rr c)) segs
      fun c => iprop((heldAt Vₙ c ∗ ∃ r, prngReg c r) ∗ ∃ W, owes (c : Thread nD τ) (0 : CellTallies nD τ sig Unit) W)) :
    θ_run (Pipeline.defs pcs defs₀) (onTc (τ := τ) main) ⟨m, fun _ => 0, ρ⟩
      (fun r => ∀ c : Dev nD, ∀ b ∈ Pipeline.ucRefs τ sig, r.2.mem (((c : Thread nD τ)).1, b) = Vₙ c b) :=
  Pipeline.θ_run_regions_kit pcs a pdats () phinj emb₁ defs₀ 𝒱₀ (fun _ => ∅) (fun _ _ => 0) m ρ main segs
    (fun c Q => by rw [hmain c]) hnd 0 (fun _ _ => rfl) (fun _ => BI.emp)
    (initOf (Pipeline.cells (Pipeline.pin pcs a) phinj) (Pipeline.launchToks (Pipeline.pin pcs a) phinj))
    (by
      rw [BI.bigSep_emp_const]
      iintro Hu; imodintro
      isplitl [Hu]
      · iapply (show (ownU _ : sProp 𝕄ᵣ)
            ⊢ BI.own (emb₁ (initOf (Pipeline.cells (Pipeline.pin pcs a) phinj) (Pipeline.launchToks (Pipeline.pin pcs a) phinj))) from .rfl)
        iexact Hu
      iempintro)
    _ _ hch
    (by
      refine Pipeline.initEach (fun _ => ∅) (fun _ _ => 0) fun c => ?_
      rw [show unscopedBufs c (fun b => m ((c : Thread nD τ).loc b)) = heldAt (fun c b => (s₀ m ρ).mem ((c : Dev nD), b)) c
        from Pipeline.unscopedBufs_held c fun b => (s₀ m ρ).mem ((c : Dev nD), b)]
      iintro ⟨⟨Hh, -, HO, -, Hp, -⟩, -⟩
      imodintro
      isplitl [Hh]; · iexact Hh
      isplitl [Hp]; · iexists _; iexact Hp
      iexists ∅; iexact HO)
    (fun c s => ∀ b ∈ Pipeline.ucRefs τ sig, s.mem (((c : Thread nD τ)).1, b) = Vₙ c b)
    (fun c s' => by
      iintro ⟨⟨Hh, -⟩, HSI⟩
      unfold heldAt StableHlo.held
      imodintro
      iapply (pointsTo_read_all (Pipeline.ucRefs τ sig) (fun b => (((c : Thread nD τ)).1, b)) (Vₙ c) s')
      isplitl [Hh] <;> iassumption)
    fun _ h => h

end Launch

end Cert.Lib

end
-- ==== Proof.KB.Run.lean ====
import proofs.«431055_j50766513438884_1_alg».proof.Proof.KB.Reg0
import proofs.«431055_j50766513438884_1_alg».proof.Proof.KB.Reg1
import proofs.«431055_j50766513438884_1_alg».proof.Proof.KB.Reg2
import proofs.«431055_j50766513438884_1_alg».proof.Proof.KB.Reg3
import proofs.«431055_j50766513438884_1_alg».proof.Proof.KB.Reg4
import proofs.«431055_j50766513438884_1_alg».proof.Proof.KB.Reg5
import proofs.«431055_j50766513438884_1_alg».proof.Proof.LibRegion
import proofs.«431055_j50766513438884_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev B0 : Dev nD → Valuation τ sig (Elt F) := fun c b => (s₀ m ρ).mem ((c : Dev nD), b)
noncomputable abbrev B1 : Dev nD → Valuation τ sig (Elt F) := fun c => StableHlo.after hostOps0 (B0 m ρ c)
noncomputable abbrev B2 : Dev nD → Valuation τ sig (Elt F) := fun c => StableHlo.after hostOps0_1 (B1 m ρ c)
noncomputable abbrev B3 : Dev nD → Valuation τ sig (Elt F) := fun c => StableHlo.after hostOps0_2 (B2 m ρ c)
noncomputable abbrev U3 : (c : Dev nD) → (b : Ref sig .tc) → Buf (Elt F) ((c : Thread nD τ).loc b) := fun c b => B3 m ρ c b
noncomputable def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N :=
  Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) :=
  Pipeline.withArrays_of_ne spec0 c _ _ b hb
noncomputable abbrev B5 : Dev nD → Valuation τ sig (Elt F) := fun c => StableHlo.after hostOps1 (B4 m ρ c)
noncomputable abbrev U5 : (c : Dev nD) → (b : Ref sig .tc) → Buf (Elt F) ((c : Thread nD τ).loc b) := fun c b => B5 m ρ c b
noncomputable def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N :=
  Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) :=
  Pipeline.withArrays_of_ne spec1 c _ _ b hb
noncomputable abbrev B7 : Dev nD → Valuation τ sig (Elt F) := fun c => StableHlo.after hostOps2 (B6 m ρ c)
noncomputable abbrev U7 : (c : Dev nD) → (b : Ref sig .tc) → Buf (Elt F) ((c : Thread nD τ).loc b) := fun c b => B7 m ρ c b
noncomputable def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N :=
  Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) :=
  Pipeline.withArrays_of_ne spec2 c _ _ b hb
noncomputable abbrev B9 : Dev nD → Valuation τ sig (Elt F) := fun c => StableHlo.after hostOps3 (B8 m ρ c)
noncomputable abbrev U9 : (c : Dev nD) → (b : Ref sig .tc) → Buf (Elt F) ((c : Thread nD τ).loc b) := fun c b => B9 m ρ c b
noncomputable def B10 (c : Dev nD) : Valuation τ sig (Elt F) :=
  Pipeline.withArrays spec3 c (B9 m ρ c) fun w => (dat3 (U9 m ρ) c).arrAt w cfg3.N
theorem B10_arr (c : Dev nD) (w : Fin cfg3.W) :
    B10 m ρ c (Proc.devRef .tc (Pipeline.arrRef spec3 w)) = (dat3 (U9 m ρ) c).arrAt w cfg3.N :=
  Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) :=
  Pipeline.withArrays_of_ne spec3 c _ _ b hb
noncomputable abbrev B11 : Dev nD → Valuation τ sig (Elt F) := fun c => StableHlo.after hostOps4 (B10 m ρ c)
noncomputable abbrev U11 : (c : Dev nD) → (b : Ref sig .tc) → Buf (Elt F) ((c : Thread nD τ).loc b) := fun c b => B11 m ρ c b
noncomputable def B12 (c : Dev nD) : Valuation τ sig (Elt F) :=
  Pipeline.withArrays spec4 c (B11 m ρ c) fun w => (dat4 (U11 m ρ) c).arrAt w cfg4.N
theorem B12_arr (c : Dev nD) (w : Fin cfg4.W) :
    B12 m ρ c (Proc.devRef .tc (Pipeline.arrRef spec4 w)) = (dat4 (U11 m ρ) c).arrAt w cfg4.N :=
  Pipeline.withArrays_arr spec4 launch4.win.arr_inj c _ _ w
theorem B12_of_ne (c : Dev nD) (b : Ref sig .tc) (hb : ∀ w, Pipeline.arrRef spec4 w ≠ b) :
    B12 m ρ c (Proc.devRef .tc b) = B11 m ρ c (Proc.devRef .tc b) :=
  Pipeline.withArrays_of_ne spec4 c _ _ b hb
noncomputable abbrev B13 : Dev nD → Valuation τ sig (Elt F) := fun c => StableHlo.after hostOps5 (B12 m ρ c)
noncomputable abbrev U13 : (c : Dev nD) → (b : Ref sig .tc) → Buf (Elt F) ((c : Thread nD τ).loc b) := fun c b => B13 m ρ c b
noncomputable def B14 (c : Dev nD) : Valuation τ sig (Elt F) :=
  Pipeline.withArrays spec5 c (B13 m ρ c) fun w => (dat5 (U13 m ρ) c).arrAt w cfg5.N
theorem B14_arr (c : Dev nD) (w : Fin cfg5.W) :
    B14 m ρ c (Proc.devRef .tc (Pipeline.arrRef spec5 w)) = (dat5 (U13 m ρ) c).arrAt w cfg5.N :=
  Pipeline.withArrays_arr spec5 launch5.win.arr_inj c _ _ w
theorem B14_of_ne (c : Dev nD) (b : Ref sig .tc) (hb : ∀ w, Pipeline.arrRef spec5 w ≠ b) :
    B14 m ρ c (Proc.devRef .tc b) = B13 m ρ c (Proc.devRef .tc b) :=
  Pipeline.withArrays_of_ne spec5 c _ _ b hb

noncomputable def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U9 m ρ) c
  | ⟨4, _⟩ => fun c => dat4 (U11 m ρ) c
  | ⟨5, _⟩ => fun c => dat5 (U13 m ρ) c
noncomputable abbrev 𝒱ₕ : Variants := Variants.none
noncomputable abbrev Lh : GSem nD τ sig → Finset Unit := fun _ => ∅
noncomputable abbrev lvh : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The side facts `Lib.regOf` needs of each region's data, by cases on the region. -/
theorem pd_facts (p : Fin 6) (c : Dev nD) : (∀ w, (pdats m ρ p c).q w = fullShare) ∧ (∀ t, (pdats m ρ p c).owed t = 0)
    ∧ ∀ x, x ∈ (pdats m ρ p c).recorded 0 := by
  fin_cases p <;> exact ⟨fun _ => rfl, fun _ => rfl, fun _ => trivial⟩

noncomputable abbrev hsegs : List (Pipeline.Seg (pcfgs (F := F)) adm (pdats m ρ) () defs₀ 𝒱ₕ Lh lvh) :=
  [ .host (Lib.hseg hostOps0 hostOps0_sub hostOps0_fresh (B0 m ρ)),
    .host (Lib.hseg hostOps0_1 hostOps0_1_sub hostOps0_1_fresh (B1 m ρ)),
    .host (Lib.hseg hostOps0_2 hostOps0_2_sub hostOps0_2_fresh (B2 m ρ)),
    .region (Lib.regOf (pdats m ρ) 0 launch0 (B3 m ρ) (pd_facts m ρ 0) (fun _ _ => rfl) (body_obligation0 (U3 m ρ)) (fun _ => .rfl) (fun _ => .rfl)),
    .host (Lib.hseg hostOps1 hostOps1_sub hostOps1_fresh (B4 m ρ)),
    .region (Lib.regOf (pdats m ρ) 1 launch1 (B5 m ρ) (pd_facts m ρ 1) (fun _ _ => rfl) (body_obligation1 (U5 m ρ)) (fun _ => .rfl) (fun _ => .rfl)),
    .host (Lib.hseg hostOps2 hostOps2_sub hostOps2_fresh (B6 m ρ)),
    .region (Lib.regOf (pdats m ρ) 2 launch2 (B7 m ρ) (pd_facts m ρ 2) (fun _ _ => rfl) (body_obligation2 (U7 m ρ)) (fun _ => .rfl) (fun _ => .rfl)),
    .host (Lib.hseg hostOps3 hostOps3_sub hostOps3_fresh (B8 m ρ)),
    .region (Lib.regOf (pdats m ρ) 3 launch3 (B9 m ρ) (pd_facts m ρ 3) (fun _ _ => rfl) (body_obligation3 (U9 m ρ)) (fun _ => .rfl) (fun _ => .rfl)),
    .host (Lib.hseg hostOps4 hostOps4_sub hostOps4_fresh (B10 m ρ)),
    .region (Lib.regOf (pdats m ρ) 4 launch4 (B11 m ρ) (pd_facts m ρ 4) (fun _ _ => rfl) (body_obligation4 (U11 m ρ)) (hin4 (U11 m ρ)) (hout4 (U11 m ρ))),
    .host (Lib.hseg hostOps5 hostOps5_sub hostOps5_fresh (B12 m ρ)),
    .region (Lib.regOf (pdats m ρ) 5 launch5 (B13 m ρ) (pd_facts m ρ 5) (fun _ _ => rfl) (body_obligation5 (U13 m ρ)) (fun _ => .rfl) (fun _ => .rfl)) ]
theorem main_run (c : Dev nD) : main (F := F) c = Pipeline.Seg.run (hsegs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m ρ c b) :=
  Lib.run_held (pdats m ρ) cellOf_inj m ρ main (hsegs m ρ) (main_run m ρ)
    (by simp only [hsegs, Pipeline.Seg.pipes_host, Pipeline.Seg.pipes_region, Pipeline.Seg.pipes_nil]; decide) (B14 m ρ)
    (by and_intros <;> first | exact fun _ => .rfl | exact fun _ => sep_assoc')

end Cert.Kernel.Hand

end
-- ==== Proof.KB.Keep.lean ====
import proofs.«431055_j50766513438884_1_alg».proof.Proof.KB.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg) (c : Dev nD) (r : Ref sig .tc)

-- A region leaves an array it only reads at the contents it found, and a buffer that is none of its arrays untouched.
theorem region_keep {cfg : Pipeline.Cfg sig Λ₀} (dat : Dat τ (Elt F) Unit ℕ (UR sig nD τ) ℕ cfg c) {V V' : Valuation τ sig (Elt F)}
    (harr : ∀ w, V' (Proc.devRef .tc (Pipeline.arrRef cfg.spec w)) = dat.arrAt w cfg.N)
    (hne : ∀ b, (∀ w, Pipeline.arrRef cfg.spec w ≠ b) → V' (Proc.devRef .tc b) = V (Proc.devRef .tc b))
    (hA : ∀ w, dat.A w = V (Proc.devRef .tc (Pipeline.arrRef cfg.spec w))) {o : Ref sig .tc}
    (ho : ∀ w, Pipeline.arrRef cfg.spec w ≠ o → (cfg.win w).isOut = false) (hr : r ∉ [o]) :
    V' (Proc.devRef .tc r) = V (Proc.devRef .tc r) := by
  by_cases h : ∃ w, Pipeline.arrRef cfg.spec w = r
  · obtain ⟨w, rfl⟩ := h
    exact (harr w).trans ((dat.arrAt_in w (ho w (List.ne_of_not_mem_cons hr)) _).trans (hA w))
  · exact hne r fun w e => h ⟨w, e⟩

/-- The buffer contents at the boundaries between the items of the run, in order. -/
noncomputable def bdry : ℕ → Dev nD → Valuation τ sig (Elt F)
  | 0 => B0 m ρ | 1 => B1 m ρ | 2 => B2 m ρ | 3 => B3 m ρ | 4 => B4 m ρ | 5 => B5 m ρ | 6 => B6 m ρ | 7 => B7 m ρ
  | 8 => B8 m ρ | 9 => B9 m ρ | 10 => B10 m ρ | 11 => B11 m ρ | 12 => B12 m ρ | 13 => B13 m ρ | _ => B14 m ρ

/-- What the item after boundary `j` may write: a host stretch its results, a region its output array. -/
noncomputable def bdryW : ℕ → List (Ref sig .tc)
  | 0 => hostOps0_W | 1 => hostOps0_1_W | 2 => hostOps0_2_W | 3 => [main_v30] | 4 => hostOps1_W | 5 => [main_v45]
  | 6 => hostOps2_W | 7 => [main_v60] | 8 => hostOps3_W | 9 => [main_v75] | 10 => hostOps4_W | 11 => [main_v91]
  | 12 => hostOps5_W | 13 => [main_v104] | _ => []

-- A host stretch keeps what it does not write; a region writes its output array only.
theorem bdry_succ : ∀ j, r ∉ bdryW j → bdry m ρ (j + 1) c (Proc.devRef .tc r) = bdry m ρ j c (Proc.devRef .tc r)
  | 0, h => StableHlo.after_of_writes_sub hostOps0 _ hostOps0_writes h
  | 1, h => StableHlo.after_of_writes_sub hostOps0_1 _ hostOps0_1_writes h
  | 2, h => StableHlo.after_of_writes_sub hostOps0_2 _ hostOps0_2_writes h
  | 3, h => region_keep c r (dat0 (U3 m ρ) c) (B4_arr m ρ c) (B4_of_ne m ρ c) (A_eq0 _ c) (by decide) h
  | 4, h => StableHlo.after_of_writes_sub hostOps1 _ hostOps1_writes h
  | 5, h => region_keep c r (dat1 (U5 m ρ) c) (B6_arr m ρ c) (B6_of_ne m ρ c) (A_eq1 _ c) (by decide) h
  | 6, h => StableHlo.after_of_writes_sub hostOps2 _ hostOps2_writes h
  | 7, h => region_keep c r (dat2 (U7 m ρ) c) (B8_arr m ρ c) (B8_of_ne m ρ c) (A_eq2 _ c) (by decide) h
  | 8, h => StableHlo.after_of_writes_sub hostOps3 _ hostOps3_writes h
  | 9, h => region_keep c r (dat3 (U9 m ρ) c) (B10_arr m ρ c) (B10_of_ne m ρ c) (A_eq3 _ c) (by decide) h
  | 10, h => StableHlo.after_of_writes_sub hostOps4 _ hostOps4_writes h
  | 11, h => region_keep c r (dat4 (U11 m ρ) c) (B12_arr m ρ c) (B12_of_ne m ρ c) (A_eq4 _ c) (by decide) h
  | 12, h => StableHlo.after_of_writes_sub hostOps5 _ hostOps5_writes h
  | 13, h => region_keep c r (dat5 (U13 m ρ) c) (B14_arr m ρ c) (B14_of_ne m ρ c) (A_eq5 _ c) (by decide) h
  | _ + 14, _ => rfl

-- What none of `d` items in a row writes is kept across all of them.
theorem bdry_keep (i : ℕ) : ∀ d, (∀ k < d, r ∉ bdryW (i + k)) → bdry m ρ (i + d) c (Proc.devRef .tc r) = bdry m ρ i c (Proc.devRef .tc r)
  | 0, _ => rfl
  | d + 1, h => (bdry_succ m ρ c r (i + d) (h d d.lt_succ_self)).trans (bdry_keep i d fun k hk => h k (hk.trans d.lt_succ_self))

-- No item writes an argument, so the last boundary holds it as launched.
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c => by
    refine ⟨?_, ?_, ?_, ?_, ?_, ?_, ?_, ?_, ?_, ?_, ?_, ?_, ?_⟩ <;>
      exact (h c _ (mem_uc _ (by decide))).trans (bdry_keep m ρ c _ 0 14 (by decide))) (run_all m ρ)

end Cert.Kernel.Hand

end
-- ==== Proof.KI.Reg0.lean ====
import proofs.«431055_j50766513438884_1_alg».proof.Proof.Gen.KernelIdeal.Launch
import proofs.«431055_j50766513438884_1_alg».proof.Proof.Gen.KernelIdeal.Skeleton
import proofs.«431055_j50766513438884_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable abbrev r0_S5000x140 : Rect S5000x140 := Rect.unit (s := S5000x140) ![0, 0] S5000x140.size inb_S5000x140_S5000x140_0_0
noncomputable abbrev r0_S140x128 : Rect S140x128 := Rect.unit (s := S140x128) ![0, 0] S140x128.size inb_S140x128_S140x128_0_0
noncomputable abbrev r0_S5000x128 : Rect S5000x128 := Rect.unit (s := S5000x128) ![0, 0] S5000x128.size inb_S5000x128_S5000x128_0_0

noncomputable def out0_2 (x0 : Vec F S5000x140 .f32) (x1 : Vec F S140x128 .f32) : Vec F S5000x128 .f32 :=
  View.canon [⟨r0_S5000x128, k0_pay1 (View.ld x0 r0_S5000x140) (View.ld x1 r0_S140x128)⟩]

/-- The body reads its inputs and stores once, through a rectangle that covers the output block. -/
theorem sound_kernel0 (c : Dev nD) (E : Set ℕ) (i : grid0.Coords) (arg1 : Memref sig .tc .vmem S5000x140 .f32) (harg1 : arg1.IsWhole) (arg2 : Memref sig .tc .vmem S140x128 .f32) (harg2 : arg2.IsWhole) (arg3 : Memref sig .tc .vmem S5000x128 .f32) (harg3 : arg3.IsWhole)
    (x0 : Vec F S5000x140 .f32) (x1 : Vec F S140x128 .f32) (K : PUnit → sProp 𝕄) :
    let I : sProp 𝕄 := iprop(owns c arg1 fullShare x0 ∗ owns c arg2 fullShare x1)
    iprop(I ∗ (∃ d, owns c arg3 fullShare d) ∗ (iprop(I ∗ owns c arg3 fullShare (out0_2 x0 x1)) -∗ K ⟨⟩))
      ⊢ wp frame (wpE defs₀ Variants.none c none) E (cc0__matmul_kernel i arg1 harg1 arg2 harg2 arg3 harg3) K := by
  simp only [cc0__matmul_kernel_eq_skeleton, owns_eq_rep]; unfold cc0__matmul_kernel_skel
  iintro ⟨⟨H0, H1⟩, ⟨%dO, HO⟩, Hk⟩
  sl_exec
  sl_step
  iapply Hk
  iframe H0 H1
  rw [← owns_eq_rep]; unfold owns
  iexists _; isplitr
  swap; · iexact HO
  ipureintro
  rw [View.read_writes_eq_canon _ _ _ (View.cover_of_tiled [⟨r0_S5000x128, _⟩] S5000x128.size (by rfl))]
  simp only [View.readAt_eq_ld, View.read_rep]; rfl

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

/-- The body leaves an input window as it finds it, so what it finds there is what it leaves. -/
theorem before0 (c : Dev nD) : ∀ w : Fin cfg0.W, (cfg0.win w).isOut = false → ∀ t d, (dat0 V c).before w t d = (dat0 V c).after w t := by
  intro w; fin_cases w <;> intro hw t d
  all_goals first
    | exact absurd hw (by decide)
    | exact ((dat0 V c).before_in_eq_fetched _ hw (fun _ => rfl) (fun _ _ _ => rfl)
        (fun _ => by dsimp only [dat0]; rfl) t d).trans (by dsimp only [dat0]; rfl)

theorem body_obligation0 (c : Dev nD) : BodyObligation (dat0 (F := F) V c) (defs₀ (F := F)) Variants.none () Set.univ := fun t => by
  rw [bigSep_W0, bigSep_W0]
  show _ ⊢ wp _ _ _ (bodyAt0 t) _
  simp (disch := rfl) only [before0 V c]
  rw [show (dat0 V c).owesAt () t.succ = (dat0 V c).owesAt () t.castSucc from rfl]
  dsimp only [dat0, bodyAt0, st0_0, st0_1, st0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨⟨H0, H1⟩, H2⟩
  iframe

end Cert.KernelIdeal.Hand

end
-- ==== Proof.KI.Reg1.lean ====
/- Regions 1 to 3: a row tile of relu(a + b) · W per grid point; the inputs are only read, the output block is stored whole. -/
import proofs.«431055_j50766513438884_1_alg».proof.Proof.Gen.KernelIdeal.Launch
import proofs.«431055_j50766513438884_1_alg».proof.Proof.Gen.KernelIdeal.Skeleton
import proofs.«431055_j50766513438884_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev r1_a : Rect S5000x128 := Rect.unit (s := S5000x128) ![0, 0] S5000x128.size inb_S5000x128_S5000x128_0_0
noncomputable abbrev r1_b : Rect S1x128 := Rect.unit (s := S1x128) ![0, 0] S1x128.size inb_S1x128_S1x128_0_0
noncomputable abbrev r1_w : Rect S128x128 := Rect.unit (s := S128x128) ![0, 0] S128x128.size inb_S128x128_S128x128_0_0

noncomputable def out1_3 (x0 : Vec F S5000x128 .f32) (x1 : Vec F S1x128 .f32) (x2 : Vec F S128x128 .f32) : Vec F S5000x128 .f32 :=
  View.canon [⟨r1_a, k1_pay1 (View.ld x0 r1_a) (View.ld x1 r1_b) (View.ld x2 r1_w)⟩]

set_option maxHeartbeats 1000000 in

theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton, owns_eq_rep]; unfold cc1__bias_relu_matmul_kernel_skel
  iintro ⟨H0, H1, H2, ⟨%d3, H3⟩, Hk⟩
  sl_exec
  sl_step
  iapply Hk
  iframe H0 H1 H2
  rw [← owns_eq_rep]; unfold owns
  iexists _; isplitr
  swap; · iexact H3
  ipureintro
  rw [View.read_writes_eq_canon _ _ _ (View.cover_of_tiled [⟨r1_a, _⟩] S5000x128.size (by rfl))]
  simp only [View.readAt_eq_ld, View.read_rep]; rfl

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t)
    ∧ (∀ d, (dat1 V c).before 1 t d = iblk1 V c 1 t) ∧ (∀ d, (dat1 V c).before 2 t d = iblk1 V c 2 t) := by
  refine ⟨fun d => ?_, fun d => ?_, fun d => ?_⟩ <;>
    exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [(before1 V c t).1, (before1 V c t).2.1, (before1 V c t).2.2]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.Reg2.lean ====
/- Region 2: the kernel of region 1 on other arrays. -/
import proofs.«431055_j50766513438884_1_alg».proof.Proof.KI.Reg1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out1_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out1_3 (iblk2 V c 0 t) (iblk2 V c 1 t) (iblk2 V c 2 t) := by dsimp only [dat2]

theorem before2 (c : Dev nD) (t : Fin cfg2.N) : (∀ d, (dat2 V c).before 0 t d = iblk2 V c 0 t)
    ∧ (∀ d, (dat2 V c).before 1 t d = iblk2 V c 1 t) ∧ (∀ d, (dat2 V c).before 2 t d = iblk2 V c 2 t) := by
  refine ⟨fun d => ?_, fun d => ?_, fun d => ?_⟩ <;>
    exact ((dat2 V c).before_in_eq_fetched _ rfl (fun _ => rfl) (fun _ _ _ => rfl) (fun _ => rfl) t d).trans rfl

theorem cc2_eq : cc2__bias_relu_matmul_kernel (F := F) = cc1__bias_relu_matmul_kernel (F := F) := rfl

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2; rw [cc2_eq]
  simp only [(before2 V c t).1, (before2 V c t).2.1, (before2 V c t).2.2]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩⟩
  iapply (sound_kernel1 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.Reg3.lean ====
/- Region 3: the kernel of region 1 on other arrays. -/
import proofs.«431055_j50766513438884_1_alg».proof.Proof.KI.Reg1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out1_3 (iblk3 V c 0 t) (iblk3 V c 1 t) (iblk3 V c 2 t) := by dsimp only [dat3]

theorem before3 (c : Dev nD) (t : Fin cfg3.N) : (∀ d, (dat3 V c).before 0 t d = iblk3 V c 0 t)
    ∧ (∀ d, (dat3 V c).before 1 t d = iblk3 V c 1 t) ∧ (∀ d, (dat3 V c).before 2 t d = iblk3 V c 2 t) := by
  refine ⟨fun d => ?_, fun d => ?_, fun d => ?_⟩ <;>
    exact ((dat3 V c).before_in_eq_fetched _ rfl (fun _ => rfl) (fun _ _ _ => rfl) (fun _ => rfl) t d).trans rfl

theorem cc3_eq : cc3__bias_relu_matmul_kernel (F := F) = cc1__bias_relu_matmul_kernel (F := F) := rfl

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3; rw [cc3_eq]
  simp only [(before3 V c t).1, (before3 V c t).2.1, (before3 V c t).2.2]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩⟩
  iapply (sound_kernel1 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.Reg4.lean ====
import proofs.«431055_j50766513438884_1_alg».proof.Proof.Gen.KernelIdeal.Launch
import proofs.«431055_j50766513438884_1_alg».proof.Proof.Gen.KernelIdeal.Skeleton
import proofs.«431055_j50766513438884_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def acc4 (c : Dev nD) : (n : ℕ) → n < cfg4.N → Vec F S64x128 .f32
  | 0, h => k4_pay2 (iblk4 V c 0 ⟨0, h⟩) (iblk4 V c 1 ⟨0, h⟩) (iblk4 V c 2 ⟨0, h⟩) (k4_pay1 (F := F))
  | n + 1, h => k4_pay2 (iblk4 V c 0 ⟨n + 1, h⟩) (iblk4 V c 1 ⟨n + 1, h⟩) (iblk4 V c 2 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) (iblk4 V c 2 ⟨0, h⟩) (k4_pay1 (F := F)) := by
  rw [acc4]

theorem acc4_succ (c : Dev nD) (n : ℕ) (h : n + 1 < cfg4.N) :
    acc4 V c (n + 1) h = k4_pay2 (iblk4 V c 0 ⟨n + 1, h⟩) (iblk4 V c 1 ⟨n + 1, h⟩) (iblk4 V c 2 ⟨n + 1, h⟩) (acc4 V c n (Nat.lt_of_succ_lt h)) := by
  rw [acc4]

theorem acc4_first (c : Dev nD) (t : Fin cfg4.N) (hz : t.val = 0) :
    acc4 V c t.val t.isLt = k4_pay2 (iblk4 V c 0 t) (iblk4 V c 1 t) (iblk4 V c 2 t) k4_pay1 := by
  obtain ⟨_ | n, hn⟩ := t
  · exact acc4_zero V c hn
  · exact absurd hz (Nat.succ_ne_zero n)

theorem acc4_later (c : Dev nD) (t : Fin cfg4.N) (hz : t.val ≠ 0) :
    acc4 V c t.val t.isLt = k4_pay2 (iblk4 V c 0 t) (iblk4 V c 1 t) (iblk4 V c 2 t)
      (acc4 V c (t.val - 1) (Nat.lt_of_le_of_lt (Nat.sub_le _ _) t.isLt)) := by
  obtain ⟨_ | n, hn⟩ := t
  · exact absurd rfl hz
  · exact acc4_succ V c n hn

noncomputable abbrev scM4 : Memref sig .tc .vmem S64x128 .f32 := Memref.whole cc4_scratch0

/-- The invariant carried from point to point, with the running sum held as `P`. -/
noncomputable abbrev inv4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

noncomputable def Phi4 (c : Dev nD) : (n : ℕ) → n ≤ cfg4.N → sProp 𝕄
  | 0, _ => Pipeline.ΦA spec4 c
  | n + 1, hn => inv4 c (owns c scM4 fullShare (acc4 V c n hn))

theorem Phi4_zero (c : Dev nD) (n : ℕ) (h : n ≤ cfg4.N) (hz : n = 0) : Phi4 V c n h = Pipeline.ΦA spec4 c := by
  subst hz; rfl

theorem Phi4_pos (c : Dev nD) (n : ℕ) (h : n ≤ cfg4.N) (hz : n ≠ 0) :
    Phi4 V c n h = inv4 c (owns c scM4 fullShare (acc4 V c (n - 1) (by omega))) := by
  cases n with
  | zero => exact absurd rfl hz
  | succ n => rfl

theorem PhiA4_eq (c : Dev nD) : (Pipeline.ΦA spec4 c : sProp 𝕄) = inv4 c iprop(∃ d, owns c scM4 fullShare d) := by
  unfold Pipeline.ΦA; rw [scopedRest4_split]; simp only [scM4, owns_whole]; try rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = acc4 V c t.val t.isLt := by dsimp only [dat4]

/-- The body leaves an input window as it finds it, so what it finds there is what it leaves. -/
theorem before4 (c : Dev nD) : ∀ w : Fin cfg4.W, (cfg4.win w).isOut = false → ∀ t d, (dat4 V c).before w t d = (dat4 V c).after w t := by
  intro w; fin_cases w <;> intro hw t d
  all_goals first
    | exact absurd hw (by decide)
    | exact ((dat4 V c).before_in_eq_fetched _ hw (fun _ => rfl) (fun _ _ _ => rfl)
        (fun _ => by dsimp only [dat4]; rfl) t d).trans (by dsimp only [dat4]; rfl)

theorem zero2 : (![0, 0] : Fin 2 → ℕ) = fun _ => 0 := funext fun a => by fin_cases a <;> rfl

noncomputable abbrev r4_acc : Rect S64x128 := Rect.unit (s := S64x128) ![0, 0] S64x128.size inb_S64x128_S64x128_0_0

theorem cover4 (p0 : Vec F S64x128 .f32) (L : List (View.Piece (Elt F) S64x128 .f32)) (y : S64x128.Idx) :
    ∃ pc ∈ ((⟨r4_acc, p0⟩ : View.Piece (Elt F) S64x128 .f32) :: L), y ∈ pc.1.set :=
  ⟨_, List.mem_cons_self, View.mem_set_unit_zero zero2 inb_S64x128_S64x128_0_0 y⟩

noncomputable abbrev cond4 (i : grid4.Coords) : Prop := (Scalar.cmpi .ne (Scalar.extui (Scalar.cmpi .eq (BitVec.ofNat 32 (i 0).val) 0#32)) 0#32) = 1#1

theorem hcond4 : ∀ t : Fin cfg4.N, cond4 (grid4.coords t) ↔ t.val = 0 :=
  (by decide +kernel : ∀ t : Fin grid4.N, cond4 (grid4.coords t) ↔ t.val = 0)

/-- The sum starts from zero at the first point and from the sum so far afterwards; the point's contribution is added and the result copied out. -/
theorem sound_kernel4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S5000x1 .i32) (harg3 : arg3.IsWhole) (arg4 : Memref sig .tc .vmem S64x128 .f32) (harg4 : arg4.IsWhole)
    (arg5 : Memref sig .tc .vmem S64x128 .f32) (harg5 : arg5.IsWhole)
    (x0 : Vec F S5000x128 .f32) (x1 : Vec F S1x128 .f32) (x2 : Vec F S5000x1 .i32) (xs : Vec F S64x128 .f32) (K : PUnit → sProp 𝕄) :
    let I : sProp 𝕄 := iprop(owns c arg1 fullShare x0 ∗ owns c arg2 fullShare x1 ∗ owns c arg3 fullShare x2)
    let s := k4_pay2 x0 x1 x2 (if cond4 i then k4_pay1 else xs)
    iprop(I ∗ (∃ d, owns c arg4 fullShare d) ∗ owns c arg5 fullShare xs ∗ (iprop(I ∗ owns c arg4 fullShare s ∗ owns c arg5 fullShare s) -∗ K ⟨⟩))
      ⊢ wp frame (wpE defs₀ Variants.none c none) E (cc4__bias_relu_pool_kernel i arg1 harg1 arg2 harg2 arg3 harg3 arg4 harg4 arg5 harg5) K := by
  simp only [cc4__bias_relu_pool_kernel_eq_skeleton, owns_eq_rep]; unfold cc4__bias_relu_pool_kernel_skel
  iintro ⟨⟨H0, H1, H2⟩, ⟨%d3, H3⟩, H4, Hk⟩
  by_cases hc : cond4 i
  all_goals
    first | rw [if_pos hc] | rw [if_neg hc]
    sl_exec (disch := exact hc)
    sl_step
    iapply Hk
    iframe H0 H1 H2
    isplitl [H3]
    all_goals
      rw [← owns_eq_rep]; unfold owns
      iexists _; isplitr
      swap; · iassumption
      ipureintro
      sl_unfold_run_names
      rw [View.read_writes_eq_canon _ _ _ (cover4 _ _)]
      simp only [View.canon_cons_unit_zero (S := S64x128) zero2, View.readCov_cons_toLoadRect, View.readAt_eq_ld, View.read_rep, View.ld_unit_zero (S := S5000x128) zero2,
        View.ld_unit_zero (S := S1x128) zero2, View.ld_unit_zero (S := S5000x1) zero2, View.ld_unit_zero (S := S64x128) zero2]

theorem body_obligation4 (c : Dev nD) : BodyObligation (dat4 (F := F) V c) (defs₀ (F := F)) Variants.none () Set.univ := fun t => by
  rw [bigSep_W4, bigSep_W4]
  show _ ⊢ wp _ _ _ (bodyAt4 t) _
  simp (disch := rfl) only [before4 V c]
  rw [show (dat4 V c).owesAt () t.succ = (dat4 V c).owesAt () t.castSucc from rfl,
    show (dat4 V c).Φ t.succ = inv4 c (owns c scM4 fullShare (acc4 V c t.val t.isLt)) from rfl,
    show (dat4 V c).Φ t.castSucc = Phi4 V c t.val (Nat.le_of_lt t.isLt) from rfl]
  dsimp only [dat4, bodyAt4, st4_0, st4_1, st4_2, st4_3]
  by_cases hz : t.val = 0
  on_goal 1 =>
    rw [Phi4_zero V c _ _ hz, PhiA4_eq, acc4_first V c t hz]
    iintro ⟨⟨⟨⟨%ds, HS⟩, HR⟩, Hg⟩, Ho, ⟨%d0, H0⟩, ⟨%d1, H1⟩, ⟨%d2, H2⟩, ⟨%d3, H3⟩⟩
    iapply (sound_kernel4 c Set.univ _ _ _ _ _ _ _ _ _ _ _ (iblk4 V c 0 t) (iblk4 V c 1 t) (iblk4 V c 2 t) ds _)
    rw [if_pos ((hcond4 t).mpr hz)]
  on_goal 2 =>
    rw [Phi4_pos V c _ _ hz, acc4_later V c t hz]
    iintro ⟨⟨⟨HS, HR⟩, Hg⟩, Ho, ⟨%d0, H0⟩, ⟨%d1, H1⟩, ⟨%d2, H2⟩, ⟨%d3, H3⟩⟩
    iapply (sound_kernel4 c Set.univ _ _ _ _ _ _ _ _ _ _ _ (iblk4 V c 0 t) (iblk4 V c 1 t) (iblk4 V c 2 t) _ _)
    rw [if_neg fun h => hz ((hcond4 t).mp h)]
  all_goals
    iframe H0 H1 H2 HS
    isplitl [H3]; · iexists _; iexact H3
    iintro ⟨⟨H0, H1, H2⟩, H3, HS⟩
    unfold inv4
    iframe

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  show inv4 c (owns c scM4 fullShare (acc4 V c 9 (by decide))) ⊢ _
  unfold inv4
  iintro ⟨⟨HS, HR⟩, Hg⟩
  iframe HR Hg
  iexists _; iexact HS

end Cert.KernelIdeal.Hand

end
-- ==== Proof.KI.Reg5.lean ====
import proofs.«431055_j50766513438884_1_alg».proof.Proof.Gen.KernelIdeal.Launch
import proofs.«431055_j50766513438884_1_alg».proof.Proof.Gen.KernelIdeal.Skeleton
import proofs.«431055_j50766513438884_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable abbrev r5_S64x128 : Rect S64x128 := Rect.unit (s := S64x128) ![0, 0] S64x128.size inb_S64x128_S64x128_0_0
noncomputable abbrev r5_S128x73 : Rect S128x73 := Rect.unit (s := S128x73) ![0, 0] S128x73.size inb_S128x73_S128x73_0_0
noncomputable abbrev r5_S1x73 : Rect S1x73 := Rect.unit (s := S1x73) ![0, 0] S1x73.size inb_S1x73_S1x73_0_0
noncomputable abbrev r5_S73x41 : Rect S73x41 := Rect.unit (s := S73x41) ![0, 0] S73x41.size inb_S73x41_S73x41_0_0
noncomputable abbrev r5_S1x41 : Rect S1x41 := Rect.unit (s := S1x41) ![0, 0] S1x41.size inb_S1x41_S1x41_0_0
noncomputable abbrev r5_S41x24 : Rect S41x24 := Rect.unit (s := S41x24) ![0, 0] S41x24.size inb_S41x24_S41x24_0_0
noncomputable abbrev r5_S1x24 : Rect S1x24 := Rect.unit (s := S1x24) ![0, 0] S1x24.size inb_S1x24_S1x24_0_0
noncomputable abbrev r5_S64x24 : Rect S64x24 := Rect.unit (s := S64x24) ![0, 0] S64x24.size inb_S64x24_S64x24_0_0

noncomputable def out5_7 (x0 : Vec F S64x128 .f32) (x1 : Vec F S128x73 .f32) (x2 : Vec F S1x73 .f32) (x3 : Vec F S73x41 .f32) (x4 : Vec F S1x41 .f32) (x5 : Vec F S41x24 .f32) (x6 : Vec F S1x24 .f32) : Vec F S64x24 .f32 :=
  View.canon [⟨r5_S64x24, k5_pay1 (View.ld x0 r5_S64x128) (View.ld x1 r5_S128x73) (View.ld x2 r5_S1x73) (View.ld x3 r5_S73x41) (View.ld x4 r5_S1x41) (View.ld x5 r5_S41x24) (View.ld x6 r5_S1x24)⟩]

/-- The body reads its inputs and stores once, through a rectangle that covers the output block. -/
theorem sound_kernel5 (c : Dev nD) (E : Set ℕ) (i : grid5.Coords) (arg1 : Memref sig .tc .vmem S64x128 .f32) (harg1 : arg1.IsWhole) (arg2 : Memref sig .tc .vmem S128x73 .f32) (harg2 : arg2.IsWhole) (arg3 : Memref sig .tc .vmem S1x73 .f32) (harg3 : arg3.IsWhole) (arg4 : Memref sig .tc .vmem S73x41 .f32) (harg4 : arg4.IsWhole) (arg5 : Memref sig .tc .vmem S1x41 .f32) (harg5 : arg5.IsWhole) (arg6 : Memref sig .tc .vmem S41x24 .f32) (harg6 : arg6.IsWhole) (arg7 : Memref sig .tc .vmem S1x24 .f32) (harg7 : arg7.IsWhole) (arg8 : Memref sig .tc .vmem S64x24 .f32) (harg8 : arg8.IsWhole)
    (x0 : Vec F S64x128 .f32) (x1 : Vec F S128x73 .f32) (x2 : Vec F S1x73 .f32) (x3 : Vec F S73x41 .f32) (x4 : Vec F S1x41 .f32) (x5 : Vec F S41x24 .f32) (x6 : Vec F S1x24 .f32) (K : PUnit → sProp 𝕄) :
    let I : sProp 𝕄 := iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6)
    iprop(I ∗ (∃ d, owns c arg8 fullShare d) ∗ (iprop(I ∗ owns c arg8 fullShare (out5_7 x0 x1 x2 x3 x4 x5 x6)) -∗ K ⟨⟩))
      ⊢ wp frame (wpE defs₀ Variants.none c none) E (cc5__mlp_kernel i arg1 harg1 arg2 harg2 arg3 harg3 arg4 harg4 arg5 harg5 arg6 harg6 arg7 harg7 arg8 harg8) K := by
  simp only [cc5__mlp_kernel_eq_skeleton, owns_eq_rep]; unfold cc5__mlp_kernel_skel
  iintro ⟨⟨H0, H1, H2, H3, H4, H5, H6⟩, ⟨%dO, HO⟩, Hk⟩
  sl_exec
  sl_step
  iapply Hk
  iframe H0 H1 H2 H3 H4 H5 H6
  rw [← owns_eq_rep]; unfold owns
  iexists _; isplitr
  swap; · iexact HO
  ipureintro
  rw [View.read_writes_eq_canon _ _ _ (View.cover_of_tiled [⟨r5_S64x24, _⟩] S64x24.size (by rfl))]
  simp only [View.readAt_eq_ld, View.read_rep]; rfl

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := rfl

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- The body leaves an input window as it finds it, so what it finds there is what it leaves. -/
theorem before5 (c : Dev nD) : ∀ w : Fin cfg5.W, (cfg5.win w).isOut = false → ∀ t d, (dat5 V c).before w t d = (dat5 V c).after w t := by
  intro w; fin_cases w <;> intro hw t d
  all_goals first
    | exact absurd hw (by decide)
    | exact ((dat5 V c).before_in_eq_fetched _ hw (fun _ => rfl) (fun _ _ _ => rfl)
        (fun _ => by dsimp only [dat5]; rfl) t d).trans (by dsimp only [dat5]; rfl)

theorem body_obligation5 (c : Dev nD) : BodyObligation (dat5 (F := F) V c) (defs₀ (F := F)) Variants.none () Set.univ := fun t => by
  rw [bigSep_W5, bigSep_W5]
  show _ ⊢ wp _ _ _ (bodyAt5 t) _
  simp (disch := rfl) only [before5 V c]
  rw [show (dat5 V c).owesAt () t.succ = (dat5 V c).owesAt () t.castSucc from rfl]
  dsimp only [dat5, bodyAt5, st5_0, st5_1, st5_2, st5_3, st5_4, st5_5, st5_6, st5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro ⟨⟨H0, H1, H2, H3, H4, H5, H6⟩, H7⟩
  iframe

end Cert.KernelIdeal.Hand

end
-- ==== Proof.KI.Run.lean ====
import proofs.«431055_j50766513438884_1_alg».proof.Proof.KI.Reg0
import proofs.«431055_j50766513438884_1_alg».proof.Proof.KI.Reg1
import proofs.«431055_j50766513438884_1_alg».proof.Proof.KI.Reg2
import proofs.«431055_j50766513438884_1_alg».proof.Proof.KI.Reg3
import proofs.«431055_j50766513438884_1_alg».proof.Proof.KI.Reg4
import proofs.«431055_j50766513438884_1_alg».proof.Proof.KI.Reg5
import proofs.«431055_j50766513438884_1_alg».proof.Proof.LibRegion
import proofs.«431055_j50766513438884_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev B0 : Dev nD → Valuation τ sig (Elt F) := fun c b => (s₀ m ρ).mem ((c : Dev nD), b)
noncomputable abbrev B1 : Dev nD → Valuation τ sig (Elt F) := fun c => StableHlo.after hostOps0 (B0 m ρ c)
noncomputable abbrev B2 : Dev nD → Valuation τ sig (Elt F) := fun c => StableHlo.after hostOps0_1 (B1 m ρ c)
noncomputable abbrev B3 : Dev nD → Valuation τ sig (Elt F) := fun c => StableHlo.after hostOps0_2 (B2 m ρ c)
noncomputable abbrev U3 : (c : Dev nD) → (b : Ref sig .tc) → Buf (Elt F) ((c : Thread nD τ).loc b) := fun c b => B3 m ρ c b
noncomputable def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N :=
  Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) :=
  Pipeline.withArrays_of_ne spec0 c _ _ b hb
noncomputable abbrev B5 : Dev nD → Valuation τ sig (Elt F) := fun c => StableHlo.after hostOps1 (B4 m ρ c)
noncomputable abbrev U5 : (c : Dev nD) → (b : Ref sig .tc) → Buf (Elt F) ((c : Thread nD τ).loc b) := fun c b => B5 m ρ c b
noncomputable def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N :=
  Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) :=
  Pipeline.withArrays_of_ne spec1 c _ _ b hb
noncomputable abbrev B7 : Dev nD → Valuation τ sig (Elt F) := fun c => StableHlo.after hostOps2 (B6 m ρ c)
noncomputable abbrev U7 : (c : Dev nD) → (b : Ref sig .tc) → Buf (Elt F) ((c : Thread nD τ).loc b) := fun c b => B7 m ρ c b
noncomputable def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N :=
  Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) :=
  Pipeline.withArrays_of_ne spec2 c _ _ b hb
noncomputable abbrev B9 : Dev nD → Valuation τ sig (Elt F) := fun c => StableHlo.after hostOps3 (B8 m ρ c)
noncomputable abbrev U9 : (c : Dev nD) → (b : Ref sig .tc) → Buf (Elt F) ((c : Thread nD τ).loc b) := fun c b => B9 m ρ c b
noncomputable def B10 (c : Dev nD) : Valuation τ sig (Elt F) :=
  Pipeline.withArrays spec3 c (B9 m ρ c) fun w => (dat3 (U9 m ρ) c).arrAt w cfg3.N
theorem B10_arr (c : Dev nD) (w : Fin cfg3.W) :
    B10 m ρ c (Proc.devRef .tc (Pipeline.arrRef spec3 w)) = (dat3 (U9 m ρ) c).arrAt w cfg3.N :=
  Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) :=
  Pipeline.withArrays_of_ne spec3 c _ _ b hb
noncomputable abbrev B11 : Dev nD → Valuation τ sig (Elt F) := fun c => StableHlo.after hostOps4 (B10 m ρ c)
noncomputable abbrev U11 : (c : Dev nD) → (b : Ref sig .tc) → Buf (Elt F) ((c : Thread nD τ).loc b) := fun c b => B11 m ρ c b
noncomputable def B12 (c : Dev nD) : Valuation τ sig (Elt F) :=
  Pipeline.withArrays spec4 c (B11 m ρ c) fun w => (dat4 (U11 m ρ) c).arrAt w cfg4.N
theorem B12_arr (c : Dev nD) (w : Fin cfg4.W) :
    B12 m ρ c (Proc.devRef .tc (Pipeline.arrRef spec4 w)) = (dat4 (U11 m ρ) c).arrAt w cfg4.N :=
  Pipeline.withArrays_arr spec4 launch4.win.arr_inj c _ _ w
theorem B12_of_ne (c : Dev nD) (b : Ref sig .tc) (hb : ∀ w, Pipeline.arrRef spec4 w ≠ b) :
    B12 m ρ c (Proc.devRef .tc b) = B11 m ρ c (Proc.devRef .tc b) :=
  Pipeline.withArrays_of_ne spec4 c _ _ b hb
noncomputable abbrev B13 : Dev nD → Valuation τ sig (Elt F) := fun c => StableHlo.after hostOps5 (B12 m ρ c)
noncomputable abbrev U13 : (c : Dev nD) → (b : Ref sig .tc) → Buf (Elt F) ((c : Thread nD τ).loc b) := fun c b => B13 m ρ c b
noncomputable def B14 (c : Dev nD) : Valuation τ sig (Elt F) :=
  Pipeline.withArrays spec5 c (B13 m ρ c) fun w => (dat5 (U13 m ρ) c).arrAt w cfg5.N
theorem B14_arr (c : Dev nD) (w : Fin cfg5.W) :
    B14 m ρ c (Proc.devRef .tc (Pipeline.arrRef spec5 w)) = (dat5 (U13 m ρ) c).arrAt w cfg5.N :=
  Pipeline.withArrays_arr spec5 launch5.win.arr_inj c _ _ w
theorem B14_of_ne (c : Dev nD) (b : Ref sig .tc) (hb : ∀ w, Pipeline.arrRef spec5 w ≠ b) :
    B14 m ρ c (Proc.devRef .tc b) = B13 m ρ c (Proc.devRef .tc b) :=
  Pipeline.withArrays_of_ne spec5 c _ _ b hb

noncomputable def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U9 m ρ) c
  | ⟨4, _⟩ => fun c => dat4 (U11 m ρ) c
  | ⟨5, _⟩ => fun c => dat5 (U13 m ρ) c
noncomputable abbrev 𝒱ₕ : Variants := Variants.none
noncomputable abbrev Lh : GSem nD τ sig → Finset Unit := fun _ => ∅
noncomputable abbrev lvh : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The side facts `Lib.regOf` needs of each region's data, by cases on the region. -/
theorem pd_facts (p : Fin 6) (c : Dev nD) : (∀ w, (pdats m ρ p c).q w = fullShare) ∧ (∀ t, (pdats m ρ p c).owed t = 0)
    ∧ ∀ x, x ∈ (pdats m ρ p c).recorded 0 := by
  fin_cases p <;> exact ⟨fun _ => rfl, fun _ => rfl, fun _ => trivial⟩

noncomputable abbrev hsegs : List (Pipeline.Seg (pcfgs (F := F)) adm (pdats m ρ) () defs₀ 𝒱ₕ Lh lvh) :=
  [ .host (Lib.hseg hostOps0 hostOps0_sub hostOps0_fresh (B0 m ρ)),
    .host (Lib.hseg hostOps0_1 hostOps0_1_sub hostOps0_1_fresh (B1 m ρ)),
    .host (Lib.hseg hostOps0_2 hostOps0_2_sub hostOps0_2_fresh (B2 m ρ)),
    .region (Lib.regOf (pdats m ρ) 0 launch0 (B3 m ρ) (pd_facts m ρ 0) (fun _ _ => rfl) (body_obligation0 (U3 m ρ)) (fun _ => .rfl) (fun _ => .rfl)),
    .host (Lib.hseg hostOps1 hostOps1_sub hostOps1_fresh (B4 m ρ)),
    .region (Lib.regOf (pdats m ρ) 1 launch1 (B5 m ρ) (pd_facts m ρ 1) (fun _ _ => rfl) (body_obligation1 (U5 m ρ)) (fun _ => .rfl) (fun _ => .rfl)),
    .host (Lib.hseg hostOps2 hostOps2_sub hostOps2_fresh (B6 m ρ)),
    .region (Lib.regOf (pdats m ρ) 2 launch2 (B7 m ρ) (pd_facts m ρ 2) (fun _ _ => rfl) (body_obligation2 (U7 m ρ)) (fun _ => .rfl) (fun _ => .rfl)),
    .host (Lib.hseg hostOps3 hostOps3_sub hostOps3_fresh (B8 m ρ)),
    .region (Lib.regOf (pdats m ρ) 3 launch3 (B9 m ρ) (pd_facts m ρ 3) (fun _ _ => rfl) (body_obligation3 (U9 m ρ)) (fun _ => .rfl) (fun _ => .rfl)),
    .host (Lib.hseg hostOps4 hostOps4_sub hostOps4_fresh (B10 m ρ)),
    .region (Lib.regOf (pdats m ρ) 4 launch4 (B11 m ρ) (pd_facts m ρ 4) (fun _ _ => rfl) (body_obligation4 (U11 m ρ)) (hin4 (U11 m ρ)) (hout4 (U11 m ρ))),
    .host (Lib.hseg hostOps5 hostOps5_sub hostOps5_fresh (B12 m ρ)),
    .region (Lib.regOf (pdats m ρ) 5 launch5 (B13 m ρ) (pd_facts m ρ 5) (fun _ _ => rfl) (body_obligation5 (U13 m ρ)) (fun _ => .rfl) (fun _ => .rfl)) ]
theorem main_run (c : Dev nD) : main (F := F) c = Pipeline.Seg.run (hsegs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m ρ c b) :=
  Lib.run_held (pdats m ρ) cellOf_inj m ρ main (hsegs m ρ) (main_run m ρ)
    (by simp only [hsegs, Pipeline.Seg.pipes_host, Pipeline.Seg.pipes_region, Pipeline.Seg.pipes_nil]; decide) (B14 m ρ)
    (by and_intros <;> first | exact fun _ => .rfl | exact fun _ => sep_assoc')

end Cert.KernelIdeal.Hand

end
-- ==== Proof.KI.Keep.lean ====
import proofs.«431055_j50766513438884_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg) (c : Dev nD) (r : Ref sig .tc)

-- A region leaves an array it only reads at the contents it found, and a buffer that is none of its arrays untouched.
theorem region_keep {cfg : Pipeline.Cfg sig Λ₀} (dat : Dat τ (Elt F) Unit ℕ (UR sig nD τ) ℕ cfg c) {V V' : Valuation τ sig (Elt F)}
    (harr : ∀ w, V' (Proc.devRef .tc (Pipeline.arrRef cfg.spec w)) = dat.arrAt w cfg.N)
    (hne : ∀ b, (∀ w, Pipeline.arrRef cfg.spec w ≠ b) → V' (Proc.devRef .tc b) = V (Proc.devRef .tc b))
    (hA : ∀ w, dat.A w = V (Proc.devRef .tc (Pipeline.arrRef cfg.spec w))) {o : Ref sig .tc}
    (ho : ∀ w, Pipeline.arrRef cfg.spec w ≠ o → (cfg.win w).isOut = false) (hr : r ∉ [o]) :
    V' (Proc.devRef .tc r) = V (Proc.devRef .tc r) := by
  by_cases h : ∃ w, Pipeline.arrRef cfg.spec w = r
  · obtain ⟨w, rfl⟩ := h
    exact (harr w).trans ((dat.arrAt_in w (ho w (List.ne_of_not_mem_cons hr)) _).trans (hA w))
  · exact hne r fun w e => h ⟨w, e⟩

/-- The buffer contents at the boundaries between the items of the run, in order. -/
noncomputable def bdry : ℕ → Dev nD → Valuation τ sig (Elt F)
  | 0 => B0 m ρ | 1 => B1 m ρ | 2 => B2 m ρ | 3 => B3 m ρ | 4 => B4 m ρ | 5 => B5 m ρ | 6 => B6 m ρ | 7 => B7 m ρ
  | 8 => B8 m ρ | 9 => B9 m ρ | 10 => B10 m ρ | 11 => B11 m ρ | 12 => B12 m ρ | 13 => B13 m ρ | _ => B14 m ρ

/-- What the item after boundary `j` may write: a host stretch its results, a region its output array. -/
noncomputable def bdryW : ℕ → List (Ref sig .tc)
  | 0 => hostOps0_W | 1 => hostOps0_1_W | 2 => hostOps0_2_W | 3 => [main_v30] | 4 => hostOps1_W | 5 => [main_v45]
  | 6 => hostOps2_W | 7 => [main_v60] | 8 => hostOps3_W | 9 => [main_v75] | 10 => hostOps4_W | 11 => [main_v91]
  | 12 => hostOps5_W | 13 => [main_v104] | _ => []

-- A host stretch keeps what it does not write; a region writes its output array only.
theorem bdry_succ : ∀ j, r ∉ bdryW j → bdry m ρ (j + 1) c (Proc.devRef .tc r) = bdry m ρ j c (Proc.devRef .tc r)
  | 0, h => StableHlo.after_of_writes_sub hostOps0 _ hostOps0_writes h
  | 1, h => StableHlo.after_of_writes_sub hostOps0_1 _ hostOps0_1_writes h
  | 2, h => StableHlo.after_of_writes_sub hostOps0_2 _ hostOps0_2_writes h
  | 3, h => region_keep c r (dat0 (U3 m ρ) c) (B4_arr m ρ c) (B4_of_ne m ρ c) (A_eq0 _ c) (by decide) h
  | 4, h => StableHlo.after_of_writes_sub hostOps1 _ hostOps1_writes h
  | 5, h => region_keep c r (dat1 (U5 m ρ) c) (B6_arr m ρ c) (B6_of_ne m ρ c) (A_eq1 _ c) (by decide) h
  | 6, h => StableHlo.after_of_writes_sub hostOps2 _ hostOps2_writes h
  | 7, h => region_keep c r (dat2 (U7 m ρ) c) (B8_arr m ρ c) (B8_of_ne m ρ c) (A_eq2 _ c) (by decide) h
  | 8, h => StableHlo.after_of_writes_sub hostOps3 _ hostOps3_writes h
  | 9, h => region_keep c r (dat3 (U9 m ρ) c) (B10_arr m ρ c) (B10_of_ne m ρ c) (A_eq3 _ c) (by decide) h
  | 10, h => StableHlo.after_of_writes_sub hostOps4 _ hostOps4_writes h
  | 11, h => region_keep c r (dat4 (U11 m ρ) c) (B12_arr m ρ c) (B12_of_ne m ρ c) (A_eq4 _ c) (by decide) h
  | 12, h => StableHlo.after_of_writes_sub hostOps5 _ hostOps5_writes h
  | 13, h => region_keep c r (dat5 (U13 m ρ) c) (B14_arr m ρ c) (B14_of_ne m ρ c) (A_eq5 _ c) (by decide) h
  | _ + 14, _ => rfl

-- What none of `d` items in a row writes is kept across all of them.
theorem bdry_keep (i : ℕ) : ∀ d, (∀ k < d, r ∉ bdryW (i + k)) → bdry m ρ (i + d) c (Proc.devRef .tc r) = bdry m ρ i c (Proc.devRef .tc r)
  | 0, _ => rfl
  | d + 1, h => (bdry_succ m ρ c r (i + d) (h d d.lt_succ_self)).trans (bdry_keep i d fun k hk => h k (hk.trans d.lt_succ_self))

-- No item writes an argument, so the last boundary holds it as launched.
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c => by
    refine ⟨?_, ?_, ?_, ?_, ?_, ?_, ?_, ?_, ?_, ?_, ?_, ?_, ?_⟩ <;>
      exact (h c _ (mem_uc _ (by decide))).trans (bdry_keep m ρ c _ 0 14 (by decide))) (run_all m ρ)

end Cert.KernelIdeal.Hand

end
-- ==== Proof.Spec.lean ====
import proofs.«431055_j50766513438884_1_alg».proof.Proof.Gen.ReferenceIdeal
import Idealize.ShloMosaic.PureOps.Ideal

noncomputable section

namespace Cert.Spec

open Cert.ReferenceIdeal Cert.ReferenceIdeal.Gen Idealize.ShloMosaic

noncomputable def lin0 (x : FVec Ideal S50000x140 .f32) (w : FVec Ideal S140x128 .f32) : FVec Ideal S50000x128 .f32 :=
  Host.dotGeneral dot_S50000x140_S140x128_S50000x128_1_0_0_1_n_n none x w

noncomputable def biasRelu (a : FVec Ideal S50000x128 .f32) (b : FVec Ideal S1x128 .f32) : FVec Ideal S50000x128 .f32 :=
  maximumf (addf a (broadcastInDim S50000x128 ![0, 1] bcast_S1x128_S50000x128_0_1 b))
    (broadcastInDim S50000x128 ![] bcast_S_S50000x128 (constant S_ .f32 0x00000000#32))

noncomputable def lin (a : FVec Ideal S50000x128 .f32) (w : FVec Ideal S128x128 .f32) : FVec Ideal S50000x128 .f32 :=
  Host.dotGeneral dot_S50000x128_S128x128_S50000x128_1_0_0_1_n_n none a w

noncomputable def pool (h : FVec Ideal S50000x128 .f32) (bt : IVec S50000x1 32) : FVec Ideal S64x128 .f32 :=
  Host.scatterAdd scatter_S64x128_S50000x1_S50000x128_1_0_0_1
    (broadcastInDim S64x128 ![] bcast_S_S64x128 (constant S_ .f32 0x00000000#32)) bt h

noncomputable def head1 (g : FVec Ideal S64x128 .f32) (w : FVec Ideal S128x73 .f32) (b : FVec Ideal S1x73 .f32) : FVec Ideal S64x73 .f32 :=
  maximumf (addf (Host.dotGeneral dot_S64x128_S128x73_S64x73_1_0_0_1_n_n none g w) (broadcastInDim S64x73 ![0, 1] bcast_S1x73_S64x73_0_1 b))
    (broadcastInDim S64x73 ![] bcast_S_S64x73 (constant S_ .f32 0x00000000#32))
noncomputable def head2 (g : FVec Ideal S64x73 .f32) (w : FVec Ideal S73x41 .f32) (b : FVec Ideal S1x41 .f32) : FVec Ideal S64x41 .f32 :=
  maximumf (addf (Host.dotGeneral dot_S64x73_S73x41_S64x41_1_0_0_1_n_n none g w) (broadcastInDim S64x41 ![0, 1] bcast_S1x41_S64x41_0_1 b))
    (broadcastInDim S64x41 ![] bcast_S_S64x41 (constant S_ .f32 0x00000000#32))
noncomputable def head3 (g : FVec Ideal S64x41 .f32) (w : FVec Ideal S41x24 .f32) (b : FVec Ideal S1x24 .f32) : FVec Ideal S64x24 .f32 :=
  maximumf (addf (Host.dotGeneral dot_S64x41_S41x24_S64x24_1_0_0_1_n_n none g w) (broadcastInDim S64x24 ![0, 1] bcast_S1x24_S64x24_0_1 b))
    (broadcastInDim S64x24 ![] bcast_S_S64x24 (constant S_ .f32 0x00000000#32))

noncomputable def head (g : FVec Ideal S64x128 .f32) (w1 : FVec Ideal S128x73 .f32) (b1 : FVec Ideal S1x73 .f32) (w2 : FVec Ideal S73x41 .f32) (b2 : FVec Ideal S1x41 .f32)
    (w3 : FVec Ideal S41x24 .f32) (b3 : FVec Ideal S1x24 .f32) : FVec Ideal S64x24 .f32 :=
  head3 (head2 (head1 g w1 b1) w2 b2) w3 b3

noncomputable def row (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

noncomputable def col (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

noncomputable def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

noncomputable def deg (ei : IVec S2x800000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (col ei))
    (broadcastInDim S850000 ![] bcast_S_S850000 (constant S_ .f32 0x3F800000#32))

noncomputable def dinv (ei : IVec S2x800000 32) : FVec Ideal S50000 .f32 :=
  select (cmpf .ogt (deg ei) (broadcastInDim S50000 ![] bcast_S_S50000 (constant S_ .f32 0x00000000#32)))
    (Host.rsqrt (deg ei))
    (broadcastInDim S50000 ![] bcast_S_S50000 (id (constant S_ .f32 0x00000000#32)))

noncomputable def norm (ei : IVec S2x800000 32) : FVec Ideal S850000 .f32 :=
  mulf (Host.gather gather_S50000_S850000x1_S850000_n_0_n_n_0_1_1 (dinv ei) (wrapIdx (row ei)))
    (Host.gather gather_S50000_S850000x1_S850000_n_0_n_n_0_1_1 (dinv ei) (wrapIdx (col ei)))

noncomputable def agg (rw cl : IVec S850000 32) (nm : FVec Ideal S850000 .f32) (p : FVec Ideal S50000x128 .f32) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 cl)
    (mulf (Host.gather gather_S50000x128_S850000x1_S850000x128_1_0_n_n_0_1_1128 p (wrapIdx rw))
      (broadcastInDim S850000x128 ![0, 1] bcast_S850000x1_S850000x128_0_1 (broadcastInDim S850000x1 ![0] bcast_S850000_S850000x1_0 nm)))

noncomputable def rowOf128 (b : FVec Ideal S128 .f32) : FVec Ideal S1x128 .f32 := broadcastInDim S1x128 ![1] bcast_S128_S1x128_1 b
noncomputable def rowOf73 (b : FVec Ideal S73 .f32) : FVec Ideal S1x73 .f32 := broadcastInDim S1x73 ![1] bcast_S73_S1x73_1 b
noncomputable def rowOf41 (b : FVec Ideal S41 .f32) : FVec Ideal S1x41 .f32 := broadcastInDim S1x41 ![1] bcast_S41_S1x41_1 b
noncomputable def rowOf24 (b : FVec Ideal S24 .f32) : FVec Ideal S1x24 .f32 := broadcastInDim S1x24 ![1] bcast_S24_S1x24_1 b

noncomputable def colOfBatch (bt : IVec S50000 32) : IVec S50000x1 32 := broadcastInDim S50000x1 ![0] bcast_S50000_S50000x1_0 bt

noncomputable def meanDiv (s : FVec Ideal S64x128 .f32) (bt : IVec S50000 32) : FVec Ideal S64x128 .f32 :=
  Host.divf s
    (broadcastInDim S64x128 ![0, 1] bcast_S64x1_S64x128_0_1 (broadcastInDim S64x1 ![0] bcast_S64_S64x1_0
      (maximumf (Host.scatterAdd scatter_S64_S50000x1_S50000_n_0_0_1
          (broadcastInDim S64 ![] bcast_S_S64 (constant S_ .f32 0x00000000#32)) (colOfBatch bt)
          (broadcastInDim S50000 ![] bcast_S_S50000 (constant S_ .f32 0x3F800000#32)))
        (broadcastInDim S64 ![] bcast_S_S64 (constant S_ .f32 0x3F800000#32)))))

noncomputable def whole (x : FVec Ideal S50000x140 .f32) (ei : IVec S2x800000 32) (bt : IVec S50000 32)
    (win : FVec Ideal S140x128 .f32) (bin : FVec Ideal S128 .f32) (wmid : FVec Ideal S128x128 .f32) (bmid : FVec Ideal S128 .f32)
    (w1 : FVec Ideal S128x73 .f32) (b1 : FVec Ideal S73 .f32) (w2 : FVec Ideal S73x41 .f32) (b2 : FVec Ideal S41 .f32)
    (w3 : FVec Ideal S41x24 .f32) (b3 : FVec Ideal S24 .f32) : FVec Ideal S64x24 .f32 :=
  head (meanDiv (pool (biasRelu (agg (row ei) (col ei) (norm ei) (lin (biasRelu (agg (row ei) (col ei) (norm ei) (lin (biasRelu (agg (row ei) (col ei) (norm ei) (lin (biasRelu (agg (row ei) (col ei) (norm ei) (lin0 x win)) (rowOf128 bin)) wmid)) (rowOf128 bmid)) wmid)) (rowOf128 bmid)) wmid)) (rowOf128 bmid)) (colOfBatch bt)) bt) w1 (rowOf73 b1) w2 (rowOf41 b2) w3 (rowOf24 b3)

end Cert.Spec

end
-- ==== Proof.KI.HostVal.lean ====
import proofs.«431055_j50766513438884_1_alg».proof.Proof.Gen.KernelIdeal.Launch
import proofs.«431055_j50766513438884_1_alg».proof.Proof.Spec
import Idealize.ShloMosaic.Lib.StableHlo.Run
import Idealize.ShloMosaic.Lib.ValueLayout

noncomputable section

namespace Cert.KernelIdeal.HostVal

open Idealize.ShloMosaic Idealize.ShloMosaic.StableHlo Idealize.ShloMosaic.ValueIdx
open Cert.KernelIdeal Cert.KernelIdeal.Gen

abbrev Wv := Valuation Cert.KernelIdeal.τ Cert.KernelIdeal.sig (Elt Ideal)

section Layout
variable {α : Type} {a : ℕ}

-- A broadcast reads coordinate `i` of the vector, or coordinate 0 when the vector has one entry, and then `i = 0`.
theorem val_eq_ite (i : Fin a) : i.val = if a = 1 then 0 else i.val := by
  have := i.isLt
  split <;> omega

-- Reshaped to one row or broadcast along the second axis, entry (0, i) is entry i of the vector.
theorem shapeCast_row_eq_broadcastInDim (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  exact (shapeCast_a_1a_apply x h u i).trans
    (broadcastInDim_apply _ hb x (ix2 u i) (ix1 i) fun | ⟨0, _⟩ => val_eq_ite i).symm

-- The same for one column: entry (i, 0) is at row-major position i.
theorem shapeCast_col_eq_broadcastInDim (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ ![0] hb x := by
  funext j
  obtain ⟨i, u, rfl⟩ : ∃ (i : Fin a) (u : Fin 1), j = ix2 i u := ⟨j 0, j 1, eq_ix2 j⟩
  refine (shapeCast_apply x h _ (ix1 i) ?_).trans
    (broadcastInDim_apply _ hb x (ix2 i u) (ix1 i) fun | ⟨0, _⟩ => val_eq_ite i).symm
  rw [Shape.rowMajor_val_one, Shape.rowMajor_val_two]
  show i.val = i.val * 1 + u.val
  omega

end Layout

-- The three stretches one at a time: the edge lists, degrees and their inverse roots; the choice where the degree is positive; the product at both endpoints.
theorem prep (W : Wv) {V : Wv}
    (hV : V = StableHlo.after (hostOps0_2 (F := Ideal)) (StableHlo.after (hostOps0_1 (F := Ideal)) (StableHlo.after (hostOps0 (F := Ideal)) W))) :
    V (Proc.devRef .tc main_v5) = Spec.row (W (Proc.devRef .tc main_arg1)) ∧ V (Proc.devRef .tc main_v6) = Spec.col (W (Proc.devRef .tc main_arg1)) ∧ V (Proc.devRef .tc main_v29) = Spec.norm (W (Proc.devRef .tc main_arg1)) := by
  subst hV
  have e : StableHlo.after (hostOps0 (F := Ideal)) W (Proc.devRef .tc main_v5) = Spec.row (W (Proc.devRef .tc main_arg1)) ∧ StableHlo.after (hostOps0 (F := Ideal)) W (Proc.devRef .tc main_v6) = Spec.col (W (Proc.devRef .tc main_arg1))
      ∧ StableHlo.after (hostOps0 (F := Ideal)) W (Proc.devRef .tc main_v12)
        = cmpf .ogt (Spec.deg (W (Proc.devRef .tc main_arg1))) (broadcastInDim S50000 ![] bcast_S_S50000 (constant (F := Ideal) S_ .f32 0x00000000#32))
      ∧ StableHlo.after (hostOps0 (F := Ideal)) W (Proc.devRef .tc main_v13) = Host.rsqrt (Spec.deg (W (Proc.devRef .tc main_arg1)))
      ∧ StableHlo.after (hostOps0 (F := Ideal)) W (Proc.devRef .tc main_cst_2) = constant (F := Ideal) S_ .f32 0x00000000#32 := by
    simp only [hostOps0]; after_results_simp; exact ⟨rfl, rfl, rfl, rfl, trivial⟩
  generalize StableHlo.after (hostOps0 (F := Ideal)) W = V0 at e ⊢
  obtain ⟨e5, e6, e12, e13, ec⟩ := e
  have f14 : StableHlo.after (hostOps0_1 (F := Ideal)) V0 (Proc.devRef .tc main_v14) = Spec.dinv (W (Proc.devRef .tc main_arg1)) := by
    have key : StableHlo.after (hostOps0_1 (F := Ideal)) V0 (Proc.devRef .tc main_v14)
        = select (V0 (Proc.devRef .tc main_v12)) (V0 (Proc.devRef .tc main_v13))
            (broadcastInDim S50000 ![] bcast_S_S50000 (id (V0 (Proc.devRef .tc main_cst_2)))) := rfl
    rw [key, e12, e13, ec]; rfl
  have f : StableHlo.after (hostOps0_1 (F := Ideal)) V0 (Proc.devRef .tc main_v5) = Spec.row (W (Proc.devRef .tc main_arg1)) ∧ StableHlo.after (hostOps0_1 (F := Ideal)) V0 (Proc.devRef .tc main_v6) = Spec.col (W (Proc.devRef .tc main_arg1)) := by
    simp only [hostOps0_1]; after_results_simp; exact ⟨e5, e6⟩
  generalize StableHlo.after (hostOps0_1 (F := Ideal)) V0 = V1 at f14 f ⊢
  simp only [hostOps0_2]; after_results_simp
  exact ⟨f.1, f.2, by rw [f14, f.1, f.2]; rfl⟩

-- Each later stretch: one aggregation step of the last projection, and the vectors the next region reads laid out as one-row or one-column matrices.

theorem round1 (W : Wv) :
    StableHlo.after (hostOps1 (F := Ideal)) W (Proc.devRef .tc main_v43) = Spec.agg (W (Proc.devRef .tc main_v5)) (W (Proc.devRef .tc main_v6)) (W (Proc.devRef .tc main_v29)) (W (Proc.devRef .tc main_v30))
    ∧ StableHlo.after (hostOps1 (F := Ideal)) W (Proc.devRef .tc main_v44) = Spec.rowOf128 (W (Proc.devRef .tc main_arg4)) := by
  simp only [hostOps1]
  after_results_simp
  exact ⟨rfl, shapeCast_row_eq_broadcastInDim _ _ _⟩

theorem round2 (W : Wv) :
    StableHlo.after (hostOps2 (F := Ideal)) W (Proc.devRef .tc main_v58) = Spec.agg (W (Proc.devRef .tc main_v5)) (W (Proc.devRef .tc main_v6)) (W (Proc.devRef .tc main_v29)) (W (Proc.devRef .tc main_v45))
    ∧ StableHlo.after (hostOps2 (F := Ideal)) W (Proc.devRef .tc main_v59) = Spec.rowOf128 (W (Proc.devRef .tc main_arg6)) := by
  simp only [hostOps2]
  after_results_simp
  exact ⟨rfl, shapeCast_row_eq_broadcastInDim _ _ _⟩

theorem round3 (W : Wv) :
    StableHlo.after (hostOps3 (F := Ideal)) W (Proc.devRef .tc main_v73) = Spec.agg (W (Proc.devRef .tc main_v5)) (W (Proc.devRef .tc main_v6)) (W (Proc.devRef .tc main_v29)) (W (Proc.devRef .tc main_v60))
    ∧ StableHlo.after (hostOps3 (F := Ideal)) W (Proc.devRef .tc main_v74) = Spec.rowOf128 (W (Proc.devRef .tc main_arg6)) := by
  simp only [hostOps3]
  after_results_simp
  exact ⟨rfl, shapeCast_row_eq_broadcastInDim _ _ _⟩

theorem round4 (W : Wv) :
    StableHlo.after (hostOps4 (F := Ideal)) W (Proc.devRef .tc main_v88) = Spec.agg (W (Proc.devRef .tc main_v5)) (W (Proc.devRef .tc main_v6)) (W (Proc.devRef .tc main_v29)) (W (Proc.devRef .tc main_v75))
    ∧ StableHlo.after (hostOps4 (F := Ideal)) W (Proc.devRef .tc main_v89) = Spec.rowOf128 (W (Proc.devRef .tc main_arg6))
    ∧ StableHlo.after (hostOps4 (F := Ideal)) W (Proc.devRef .tc main_v90) = Spec.colOfBatch (W (Proc.devRef .tc main_arg2)) := by
  simp only [hostOps4]
  after_results_simp
  exact ⟨rfl, shapeCast_row_eq_broadcastInDim _ _ _, shapeCast_col_eq_broadcastInDim _ _ _⟩

theorem tail5 (W : Wv) :
    StableHlo.after (hostOps5 (F := Ideal)) W (Proc.devRef .tc main_v100) = Spec.meanDiv (W (Proc.devRef .tc main_v91)) (W (Proc.devRef .tc main_arg2))
    ∧ StableHlo.after (hostOps5 (F := Ideal)) W (Proc.devRef .tc main_v101) = Spec.rowOf73 (W (Proc.devRef .tc main_arg8))
    ∧ StableHlo.after (hostOps5 (F := Ideal)) W (Proc.devRef .tc main_v102) = Spec.rowOf41 (W (Proc.devRef .tc main_arg10))
    ∧ StableHlo.after (hostOps5 (F := Ideal)) W (Proc.devRef .tc main_v103) = Spec.rowOf24 (W (Proc.devRef .tc main_arg12)) := by
  simp only [hostOps5]
  after_results_simp
  exact ⟨rfl, shapeCast_row_eq_broadcastInDim _ _ _, shapeCast_row_eq_broadcastInDim _ _ _, shapeCast_row_eq_broadcastInDim _ _ _⟩

end Cert.KernelIdeal.HostVal

end
-- ==== Proof.Dot.lean ====
import Idealize.ShloMosaic.Lib.StackMember
import Idealize.ShloMosaic.Lib.KernelVsHost
import Idealize.ShloMosaic.Lib.ValueLayout

namespace Cert.Dot

open Idealize.ShloMosaic Idealize.ShloMosaic.ValueIdx
open scoped BigOperators

theorem zeros : (![0, 0] : Fin 2 → Nat) = fun _ => 0 := funext fun a => by fin_cases a <;> rfl

-- A matrix index is the pair of its coordinates.
theorem ix2_of {a b : Nat} {i : (⟨2, ![a, b]⟩ : Shape).Idx} {p : Fin a} {q : Fin b} (h0 : (i 0).val = p.val)
    (h1 : (i 1).val = q.val) : i = ix2 p q :=
  (eq_ix2 i).trans (congrArg₂ ix2 (Fin.ext h0) (Fin.ext h1))

-- Both spellings of a row repeated down a matrix read the row's entry.
theorem broadcastTo_eq_inDim {α : Type} {a b : Nat} (v : (⟨2, ![1, b]⟩ : Shape).Idx → α)
    (h : (⟨2, ![1, b]⟩ : Shape).Broadcasts ⟨2, ![a, b]⟩) (hd : (⟨2, ![1, b]⟩ : Shape).BroadcastsInDim ⟨2, ![a, b]⟩ ![0, 1]) :
    broadcastTo ⟨2, ![a, b]⟩ v h = broadcastInDim ⟨2, ![a, b]⟩ ![0, 1] hd v := by
  funext j
  obtain ⟨p, q, rfl⟩ : ∃ (p : Fin a) (q : Fin b), j = ix2 p q := ⟨j 0, j 1, eq_ix2 j⟩
  rw [broadcastTo_1b_ab_apply, broadcastInDim_oneRow_apply]

-- A product contracted over the rows of both factors: the contraction index is the common row.
theorem dotGeneral_rows_apply {m k n : Nat} {φ₁ φ₂ : FTy}
    (w : DotDims.WF ⟨2, ![k, m]⟩ ⟨2, ![k, n]⟩ ⟨2, ![m, n]⟩ [0] [0] [1] [1] [] []) (prec : Option ContractPrecision)
    (A : FVec Ideal ⟨2, ![k, m]⟩ φ₁) (B : FVec Ideal ⟨2, ![k, n]⟩ φ₂) (a : Fin m) (b : Fin n) :
    Host.dotGeneral (⟨[0], [0], [1], [1], [], [], w⟩ : DotDims _ _ _) prec A B (ix2 a b)
      = ∑ c : Fin k, A (ix2 c a) * B (ix2 c b) := by
  show FloatOps.dotGeneral _ prec _ A B (ix2 a b) = _
  rw [Ideal.dotGeneral_apply, ← Equiv.sum_comp (contrEquiv1 (⟨[0], [0], [1], [1], [], [], w⟩ : DotDims _ _ _) k rfl rfl).symm]
  refine Finset.sum_congr rfl fun c _ => ?_
  have hc := contrEquiv1_symm_val
    (⟨[0], [0], [1], [1], [], [], w⟩ : DotDims ⟨2, ![k, m]⟩ ⟨2, ![k, n]⟩ ⟨2, ![m, n]⟩) k rfl rfl c
  have l : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a :=
    ix2_of (by simp [DotDims.lhsIdx]; exact hc) (by simp [DotDims.lhsIdx]; rfl)
  have r : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b :=
    ix2_of (by simp [DotDims.rhsIdx]; exact hc) (by simp [DotDims.rhsIdx]; rfl)
  rw [l, r]

end Cert.Dot
-- ==== Proof.KI.Val0.lean ====
import proofs.«431055_j50766513438884_1_alg».proof.Proof.KI.Reg0
import proofs.«431055_j50766513438884_1_alg».proof.Proof.Spec
import proofs.«431055_j50766513438884_1_alg».proof.Proof.Dot

noncomputable section

namespace Cert.KernelIdeal.Hand

open Cert.KernelIdeal Cert.KernelIdeal.Gen Cert.Dot
open Idealize.ShloMosaic Idealize.ShloMosaic.TcCoe Idealize.ShloMosaic.ValueIdx Idealize.ShloMosaic.StackMember
open Idealize.SL.Sem
open Idealize.ShloMosaic.Pipeline (Dat Cfg Window)
open scoped BigOperators

variable (V : (c : Dev nD) → (b : Ref sig .tc) → Buf (Elt Ideal) ((c : Thread nD τ).loc b))

theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

def row0 (t : Fin cfg0.N) (p : Fin 5000) : Fin 50000 :=
  ⟨t.val * 5000 + p.val, by have h : cfg0.N = 10 := N_0; have := t.isLt; have := p.isLt; omega⟩

-- Row p of tile t is row 5000·t + p of the array.
theorem emb0 (t : Fin cfg0.N) :
    (∀ (p : Fin 5000) (k : Fin 140), ((cfg0.win 0).blk t).view.emb (ix2 p k) = ix2 (row0 t p) k)
      ∧ (∀ (k : Fin 140) (q : Fin 128), ((cfg0.win 1).blk t).view.emb (ix2 k q) = ix2 k q)
      ∧ ∀ (p : Fin 5000) (q : Fin 128), ((cfg0.win 2).blk t).view.emb (ix2 p q) = ix2 (row0 t p) q := by
  obtain ⟨e0, e1, e2, e3, e4, e5⟩ := idx0_facts t
  exact ⟨fun p k => ix2_of ((win0_0.rect_emb_val t _ 0).trans (by rw [e0]; rfl)) (win0_0.rect_emb_val_of_index_zero t 1 e1 _),
    fun k q => ix2_of (win0_1.rect_emb_val_of_index_zero t 0 e2 _) (win0_1.rect_emb_val_of_index_zero t 1 e3 _),
    fun p q => ix2_of ((win0_2.rect_emb_val t _ 0).trans (by rw [e4]; rfl)) (win0_2.rect_emb_val_of_index_zero t 1 e5 _)⟩

-- Entry (p, q) of tile t's product and entry (5000·t + p, q) of the whole product are the same sum over k.
theorem flushed0_eq (c : Dev nD) (t : Fin cfg0.N) :
    (dat0 (F := Ideal) V c).flushed 2 t = ((cfg0.win 2).blk t).view.read (Elt Ideal)
      (Cert.Spec.lin0 (V c main_arg0) (V c main_arg3)) := by
  show (cfg0.win 2).cut (grid0.coords t) ((dat0 (F := Ideal) V c).after 2 t) = _
  rw [after0_2]
  unfold out0_2
  rw [View.canon_unit_zero zeros]
  simp only [View.ld_unit_zero (S := S5000x140) zeros, View.ld_unit_zero (S := S140x128) zeros]
  funext y
  obtain ⟨p, q, rfl⟩ : ∃ (p : Fin 5000) (q : Fin 128), y = ix2 p q := ⟨y 0, y 1, eq_ix2 y⟩
  obtain ⟨b0, b1, b2⟩ := emb0 t
  show k0_pay1 (iblk0 V c 0 t) (iblk0 V c 1 t) (ix2 p q)
    = Cert.Spec.lin0 (V c main_arg0) (V c main_arg3) (((cfg0.win 2).blk t).view.emb (ix2 p q))
  unfold k0_pay1
  rw [b2, matmul_zero_eq_dotGeneral]
  refine (dotGeneral_plain_apply none _ _ p q).trans (Eq.trans ?_ (dotGeneral_plain_apply none _ _ (row0 t p) q).symm)
  exact Finset.sum_congr rfl fun k _ =>
    congrArg₂ (· * ·) (congrArg (V c main_arg0) (b0 p k)) (congrArg (V c main_arg3) (b1 k q))

-- Row r lies in tile r / 5000, at the tile's row r % 5000.
theorem cover0 (i : S50000x128.Idx) : ∃ t : Fin cfg0.N, (cfg0.win 2).flush t = true ∧ i ∈ ((cfg0.win 2).blk t).view.set := by
  have hi := idx2_lt0 i
  obtain ⟨t, ht⟩ : ∃ t : Fin cfg0.N, t.val = (i 0).val / 5000 := ⟨⟨(i 0).val / 5000, by rw [show cfg0.N = 10 from N_0]; omega⟩, rfl⟩
  refine ⟨t, flush0_2 t, ?_⟩
  have e : ((cfg0.win 2).blk t).view.emb (ix2 ⟨(i 0).val % 5000, Nat.mod_lt _ (by omega)⟩ (i 1)) = i :=
    ((emb0 t).2.2 _ _).trans (ix2_of (by show _ = t.val * 5000 + (i 0).val % 5000; omega) rfl).symm
  exact e ▸ View.emb_mem_set _ _

theorem arr0 (c : Dev nD) : (dat0 (F := Ideal) V c).arrAt 2 cfg0.N = Cert.Spec.lin0 (V c main_arg0) (V c main_arg3) :=
  (dat0 (F := Ideal) V c).arrAt_eq_of_cover 2 _ (fun t _ => flushed0_eq V c t) cover0

end Cert.KernelIdeal.Hand

end
-- ==== Proof.KI.Val1.lean ====
import proofs.«431055_j50766513438884_1_alg».proof.Proof.KI.Reg1
import proofs.«431055_j50766513438884_1_alg».proof.Proof.Spec
import proofs.«431055_j50766513438884_1_alg».proof.Proof.Dot

noncomputable section

namespace Cert.KernelIdeal.Hand

open Cert.KernelIdeal Cert.KernelIdeal.Gen Cert.Dot
open Idealize.ShloMosaic Idealize.ShloMosaic.TcCoe Idealize.ShloMosaic.ValueIdx Idealize.ShloMosaic.StackMember
open Idealize.SL.Sem
open Idealize.ShloMosaic.Pipeline (Dat Cfg Window)
open scoped BigOperators

variable (V : (c : Dev nD) → (b : Ref sig .tc) → Buf (Elt Ideal) ((c : Thread nD τ).loc b))

theorem zeros1 : (![0, 0] : Fin 2 → Nat) = fun _ => 0 := zeros

-- Entry (p, q) of the tile's product: the sum over k of max(a(p, k) + b(0, k), 0) · W(k, q).
theorem tile1_apply (x0 : Vec Ideal S5000x128 .f32) (x1 : Vec Ideal S1x128 .f32) (x2 : Vec Ideal S128x128 .f32) (p : Fin 5000) (q : Fin 128) :
    k1_pay1 x0 x1 x2 (ix2 p q) = ∑ k : Fin 128, max (x0 (ix2 p k) + x1 (ix2 (0 : Fin 1) k)) 0 * x2 (ix2 k q) := by
  unfold k1_pay1
  rw [matmul_zero_eq_dotGeneral]
  refine (dotGeneral_plain_apply none _ _ p q).trans (Finset.sum_congr rfl fun k _ => ?_)
  rw [truncf_apply, truncf_apply, maximumf_apply, addf_apply, broadcastTo_1b_ab_apply, shapeCast_self, shapeCast_self, broadcast_apply]
  rw [show (FloatOps.ofBits (F := Ideal) FTy.f32 0#32) = 0 from Ideal.ofBits_zero_f32]

-- The same sum for the whole arrays.
theorem whole1_apply (A : FVec Ideal Cert.ReferenceIdeal.S50000x128 .f32) (b : FVec Ideal Cert.ReferenceIdeal.S1x128 .f32) (W : FVec Ideal Cert.ReferenceIdeal.S128x128 .f32) (r : Fin 50000) (q : Fin 128) :
    Cert.Spec.lin (Cert.Spec.biasRelu A b) W (ix2 r q) = ∑ k : Fin 128, max (A (ix2 r k) + b (ix2 (0 : Fin 1) k)) 0 * W (ix2 k q) := by
  refine (dotGeneral_plain_apply none _ W r q).trans (Finset.sum_congr rfl fun k _ => ?_)
  unfold Cert.Spec.biasRelu
  rw [maximumf_apply, addf_apply, broadcastInDim_oneRow_apply]
  exact congrArg (max _ · * _) Ideal.ofBits_zero_f32

theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

def row1 (t : Fin cfg1.N) (p : Fin 5000) : Fin 50000 :=
  ⟨t.val * 5000 + p.val, by have h : cfg1.N = 10 := N_1; have := t.isLt; have := p.isLt; omega⟩

-- Row p of tile t is row 5000·t + p of the array.
theorem emb1 (t : Fin cfg1.N) :
    (∀ (p : Fin 5000) (k : Fin 128), ((cfg1.win 0).blk t).view.emb (ix2 p k) = ix2 (row1 t p) k)
      ∧ (∀ (z : Fin 1) (k : Fin 128), ((cfg1.win 1).blk t).view.emb (ix2 z k) = ix2 z k)
      ∧ (∀ (k : Fin 128) (q : Fin 128), ((cfg1.win 2).blk t).view.emb (ix2 k q) = ix2 k q)
      ∧ ∀ (p : Fin 5000) (q : Fin 128), ((cfg1.win 3).blk t).view.emb (ix2 p q) = ix2 (row1 t p) q := by
  obtain ⟨e0, e1, e2, e3, e4, e5, e6, e7⟩ := idx1_facts t
  exact ⟨fun p k => ix2_of ((win1_0.rect_emb_val t _ 0).trans (by rw [e0]; rfl)) (win1_0.rect_emb_val_of_index_zero t 1 e1 _),
    fun z k => ix2_of (win1_1.rect_emb_val_of_index_zero t 0 e2 _) (win1_1.rect_emb_val_of_index_zero t 1 e3 _),
    fun k q => ix2_of (win1_2.rect_emb_val_of_index_zero t 0 e4 _) (win1_2.rect_emb_val_of_index_zero t 1 e5 _),
    fun p q => ix2_of ((win1_3.rect_emb_val t _ 0).trans (by rw [e6]; rfl)) (win1_3.rect_emb_val_of_index_zero t 1 e7 _)⟩

-- Entry (p, q) of tile t's product and entry (5000·t + p, q) of the whole product are the same sum over k.
theorem flushed1_eq (c : Dev nD) (t : Fin cfg1.N) :
    (dat1 (F := Ideal) V c).flushed 3 t = ((cfg1.win 3).blk t).view.read (Elt Ideal)
      (Cert.Spec.lin (Cert.Spec.biasRelu (V c main_v43) (V c main_v44)) (V c main_arg5)) := by
  show (cfg1.win 3).cut (grid1.coords t) ((dat1 (F := Ideal) V c).after 3 t) = _
  rw [after1_3]
  unfold out1_3
  rw [View.canon_unit_zero zeros]
  simp only [View.ld_unit_zero (S := S5000x128) zeros, View.ld_unit_zero (S := S1x128) zeros, View.ld_unit_zero (S := S128x128) zeros]
  funext y
  obtain ⟨p, q, rfl⟩ : ∃ (p : Fin 5000) (q : Fin 128), y = ix2 p q := ⟨y 0, y 1, eq_ix2 y⟩
  obtain ⟨b0, b1, b2, b3⟩ := emb1 t
  show k1_pay1 (iblk1 V c 0 t) (iblk1 V c 1 t) (iblk1 V c 2 t) (ix2 p q)
    = Cert.Spec.lin (Cert.Spec.biasRelu (V c main_v43) (V c main_v44)) (V c main_arg5) (((cfg1.win 3).blk t).view.emb (ix2 p q))
  rw [b3, tile1_apply, whole1_apply]
  exact Finset.sum_congr rfl fun k _ => congrArg₂ (fun u v : EReal => max u 0 * v)
    (congrArg₂ (fun u v : EReal => u + v) (congrArg (V c main_v43) (b0 p k)) (congrArg (V c main_v44) (b1 0 k))) (congrArg (V c main_arg5) (b2 k q))

-- Row r lies in tile r / 5000, at the tile's row r % 5000.
theorem cover1 (i : S50000x128.Idx) : ∃ t : Fin cfg1.N, (cfg1.win 3).flush t = true ∧ i ∈ ((cfg1.win 3).blk t).view.set := by
  have hi := idx2_lt0 i
  obtain ⟨t, ht⟩ : ∃ t : Fin cfg1.N, t.val = (i 0).val / 5000 := ⟨⟨(i 0).val / 5000, by rw [show cfg1.N = 10 from N_1]; omega⟩, rfl⟩
  refine ⟨t, flush1_3 t, ?_⟩
  have e : ((cfg1.win 3).blk t).view.emb (ix2 ⟨(i 0).val % 5000, Nat.mod_lt _ (by omega)⟩ (i 1)) = i :=
    ((emb1 t).2.2.2 _ _).trans (ix2_of (by show _ = t.val * 5000 + (i 0).val % 5000; omega) rfl).symm
  exact e ▸ View.emb_mem_set _ _

theorem arr1 (c : Dev nD) : (dat1 (F := Ideal) V c).arrAt 3 cfg1.N = Cert.Spec.lin (Cert.Spec.biasRelu (V c main_v43) (V c main_v44)) (V c main_arg5) :=
  (dat1 (F := Ideal) V c).arrAt_eq_of_cover 3 _ (fun t _ => flushed1_eq V c t) cover1

end Cert.KernelIdeal.Hand

end
-- ==== Proof.KI.Val2.lean ====
/- Region 2's output array is the whole product relu(a + b) · W, tile by tile as in region 1. -/
import proofs.«431055_j50766513438884_1_alg».proof.Proof.KI.Reg2
import proofs.«431055_j50766513438884_1_alg».proof.Proof.KI.Val1

noncomputable section

namespace Cert.KernelIdeal.Hand

open Cert.KernelIdeal Cert.KernelIdeal.Gen Cert.Dot
open Idealize.ShloMosaic Idealize.ShloMosaic.TcCoe Idealize.ShloMosaic.ValueIdx Idealize.ShloMosaic.StackMember
open Idealize.SL.Sem
open Idealize.ShloMosaic.Pipeline (Dat Cfg Window)
open scoped BigOperators

variable (V : (c : Dev nD) → (b : Ref sig .tc) → Buf (Elt Ideal) ((c : Thread nD τ).loc b))

theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

def row2 (t : Fin cfg2.N) (p : Fin 5000) : Fin 50000 :=
  ⟨t.val * 5000 + p.val, by have h : cfg2.N = 10 := N_2; have := t.isLt; have := p.isLt; omega⟩

theorem emb2 (t : Fin cfg2.N) :
    (∀ (p : Fin 5000) (k : Fin 128), ((cfg2.win 0).blk t).view.emb (ix2 p k) = ix2 (row2 t p) k)
      ∧ (∀ (z : Fin 1) (k : Fin 128), ((cfg2.win 1).blk t).view.emb (ix2 z k) = ix2 z k)
      ∧ (∀ (k : Fin 128) (q : Fin 128), ((cfg2.win 2).blk t).view.emb (ix2 k q) = ix2 k q)
      ∧ ∀ (p : Fin 5000) (q : Fin 128), ((cfg2.win 3).blk t).view.emb (ix2 p q) = ix2 (row2 t p) q := by
  obtain ⟨e0, e1, e2, e3, e4, e5, e6, e7⟩ := idx2_facts t
  exact ⟨fun p k => ix2_of ((win2_0.rect_emb_val t _ 0).trans (by rw [e0]; rfl)) (win2_0.rect_emb_val_of_index_zero t 1 e1 _),
    fun z k => ix2_of (win2_1.rect_emb_val_of_index_zero t 0 e2 _) (win2_1.rect_emb_val_of_index_zero t 1 e3 _),
    fun k q => ix2_of (win2_2.rect_emb_val_of_index_zero t 0 e4 _) (win2_2.rect_emb_val_of_index_zero t 1 e5 _),
    fun p q => ix2_of ((win2_3.rect_emb_val t _ 0).trans (by rw [e6]; rfl)) (win2_3.rect_emb_val_of_index_zero t 1 e7 _)⟩

theorem flushed2_eq (c : Dev nD) (t : Fin cfg2.N) :
    (dat2 (F := Ideal) V c).flushed 3 t = ((cfg2.win 3).blk t).view.read (Elt Ideal)
      (Cert.Spec.lin (Cert.Spec.biasRelu (V c main_v58) (V c main_v59)) (V c main_arg5)) := by
  show (cfg2.win 3).cut (grid2.coords t) ((dat2 (F := Ideal) V c).after 3 t) = _
  rw [after2_3]
  unfold out1_3
  rw [View.canon_unit_zero zeros]
  simp only [View.ld_unit_zero (S := S5000x128) zeros, View.ld_unit_zero (S := S1x128) zeros, View.ld_unit_zero (S := S128x128) zeros]
  funext y
  obtain ⟨p, q, rfl⟩ : ∃ (p : Fin 5000) (q : Fin 128), y = ix2 p q := ⟨y 0, y 1, eq_ix2 y⟩
  obtain ⟨b0, b1, b2, b3⟩ := emb2 t
  show k1_pay1 (iblk2 V c 0 t) (iblk2 V c 1 t) (iblk2 V c 2 t) (ix2 p q)
    = Cert.Spec.lin (Cert.Spec.biasRelu (V c main_v58) (V c main_v59)) (V c main_arg5) (((cfg2.win 3).blk t).view.emb (ix2 p q))
  rw [b3, tile1_apply, whole1_apply]
  exact Finset.sum_congr rfl fun k _ => congrArg₂ (fun u v : EReal => max u 0 * v)
    (congrArg₂ (fun u v : EReal => u + v) (congrArg (V c main_v58) (b0 p k)) (congrArg (V c main_v59) (b1 0 k))) (congrArg (V c main_arg5) (b2 k q))

theorem cover2 (i : S50000x128.Idx) : ∃ t : Fin cfg2.N, (cfg2.win 3).flush t = true ∧ i ∈ ((cfg2.win 3).blk t).view.set := by
  have hi := idx2_lt0 i
  obtain ⟨t, ht⟩ : ∃ t : Fin cfg2.N, t.val = (i 0).val / 5000 := ⟨⟨(i 0).val / 5000, by rw [show cfg2.N = 10 from N_2]; omega⟩, rfl⟩
  refine ⟨t, flush2_3 t, ?_⟩
  have e : ((cfg2.win 3).blk t).view.emb (ix2 ⟨(i 0).val % 5000, Nat.mod_lt _ (by omega)⟩ (i 1)) = i :=
    ((emb2 t).2.2.2 _ _).trans (ix2_of (by show _ = t.val * 5000 + (i 0).val % 5000; omega) rfl).symm
  exact e ▸ View.emb_mem_set _ _

theorem arr2 (c : Dev nD) : (dat2 (F := Ideal) V c).arrAt 3 cfg2.N = Cert.Spec.lin (Cert.Spec.biasRelu (V c main_v58) (V c main_v59)) (V c main_arg5) :=
  (dat2 (F := Ideal) V c).arrAt_eq_of_cover 3 _ (fun t _ => flushed2_eq V c t) cover2

end Cert.KernelIdeal.Hand

end
-- ==== Proof.KI.Val3.lean ====
/- Region 3's output array is the whole product relu(a + b) · W, tile by tile as in region 1. -/
import proofs.«431055_j50766513438884_1_alg».proof.Proof.KI.Reg3
import proofs.«431055_j50766513438884_1_alg».proof.Proof.KI.Val1

noncomputable section

namespace Cert.KernelIdeal.Hand

open Cert.KernelIdeal Cert.KernelIdeal.Gen Cert.Dot
open Idealize.ShloMosaic Idealize.ShloMosaic.TcCoe Idealize.ShloMosaic.ValueIdx Idealize.ShloMosaic.StackMember
open Idealize.SL.Sem
open Idealize.ShloMosaic.Pipeline (Dat Cfg Window)
open scoped BigOperators

variable (V : (c : Dev nD) → (b : Ref sig .tc) → Buf (Elt Ideal) ((c : Thread nD τ).loc b))

theorem idx3_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

def row3 (t : Fin cfg3.N) (p : Fin 5000) : Fin 50000 :=
  ⟨t.val * 5000 + p.val, by have h : cfg3.N = 10 := N_3; have := t.isLt; have := p.isLt; omega⟩

theorem emb3 (t : Fin cfg3.N) :
    (∀ (p : Fin 5000) (k : Fin 128), ((cfg3.win 0).blk t).view.emb (ix2 p k) = ix2 (row3 t p) k)
      ∧ (∀ (z : Fin 1) (k : Fin 128), ((cfg3.win 1).blk t).view.emb (ix2 z k) = ix2 z k)
      ∧ (∀ (k : Fin 128) (q : Fin 128), ((cfg3.win 2).blk t).view.emb (ix2 k q) = ix2 k q)
      ∧ ∀ (p : Fin 5000) (q : Fin 128), ((cfg3.win 3).blk t).view.emb (ix2 p q) = ix2 (row3 t p) q := by
  obtain ⟨e0, e1, e2, e3, e4, e5, e6, e7⟩ := idx3_facts t
  exact ⟨fun p k => ix2_of ((win3_0.rect_emb_val t _ 0).trans (by rw [e0]; rfl)) (win3_0.rect_emb_val_of_index_zero t 1 e1 _),
    fun z k => ix2_of (win3_1.rect_emb_val_of_index_zero t 0 e2 _) (win3_1.rect_emb_val_of_index_zero t 1 e3 _),
    fun k q => ix2_of (win3_2.rect_emb_val_of_index_zero t 0 e4 _) (win3_2.rect_emb_val_of_index_zero t 1 e5 _),
    fun p q => ix2_of ((win3_3.rect_emb_val t _ 0).trans (by rw [e6]; rfl)) (win3_3.rect_emb_val_of_index_zero t 1 e7 _)⟩

theorem flushed3_eq (c : Dev nD) (t : Fin cfg3.N) :
    (dat3 (F := Ideal) V c).flushed 3 t = ((cfg3.win 3).blk t).view.read (Elt Ideal)
      (Cert.Spec.lin (Cert.Spec.biasRelu (V c main_v73) (V c main_v74)) (V c main_arg5)) := by
  show (cfg3.win 3).cut (grid3.coords t) ((dat3 (F := Ideal) V c).after 3 t) = _
  rw [after3_3]
  unfold out1_3
  rw [View.canon_unit_zero zeros]
  simp only [View.ld_unit_zero (S := S5000x128) zeros, View.ld_unit_zero (S := S1x128) zeros, View.ld_unit_zero (S := S128x128) zeros]
  funext y
  obtain ⟨p, q, rfl⟩ : ∃ (p : Fin 5000) (q : Fin 128), y = ix2 p q := ⟨y 0, y 1, eq_ix2 y⟩
  obtain ⟨b0, b1, b2, b3⟩ := emb3 t
  show k1_pay1 (iblk3 V c 0 t) (iblk3 V c 1 t) (iblk3 V c 2 t) (ix2 p q)
    = Cert.Spec.lin (Cert.Spec.biasRelu (V c main_v73) (V c main_v74)) (V c main_arg5) (((cfg3.win 3).blk t).view.emb (ix2 p q))
  rw [b3, tile1_apply, whole1_apply]
  exact Finset.sum_congr rfl fun k _ => congrArg₂ (fun u v : EReal => max u 0 * v)
    (congrArg₂ (fun u v : EReal => u + v) (congrArg (V c main_v73) (b0 p k)) (congrArg (V c main_v74) (b1 0 k))) (congrArg (V c main_arg5) (b2 k q))

theorem cover3 (i : S50000x128.Idx) : ∃ t : Fin cfg3.N, (cfg3.win 3).flush t = true ∧ i ∈ ((cfg3.win 3).blk t).view.set := by
  have hi := idx2_lt0 i
  obtain ⟨t, ht⟩ : ∃ t : Fin cfg3.N, t.val = (i 0).val / 5000 := ⟨⟨(i 0).val / 5000, by rw [show cfg3.N = 10 from N_3]; omega⟩, rfl⟩
  refine ⟨t, flush3_3 t, ?_⟩
  have e : ((cfg3.win 3).blk t).view.emb (ix2 ⟨(i 0).val % 5000, Nat.mod_lt _ (by omega)⟩ (i 1)) = i :=
    ((emb3 t).2.2.2 _ _).trans (ix2_of (by show _ = t.val * 5000 + (i 0).val % 5000; omega) rfl).symm
  exact e ▸ View.emb_mem_set _ _

theorem arr3 (c : Dev nD) : (dat3 (F := Ideal) V c).arrAt 3 cfg3.N = Cert.Spec.lin (Cert.Spec.biasRelu (V c main_v73) (V c main_v74)) (V c main_arg5) :=
  (dat3 (F := Ideal) V c).arrAt_eq_of_cover 3 _ (fun t _ => flushed3_eq V c t) cover3

end Cert.KernelIdeal.Hand

end
-- ==== Proof.PoolSum.lean ====
import proofs.«431055_j50766513438884_1_alg».proof.Proof.Spec
import Idealize.ShloMosaic.Lib.IdealHost

noncomputable section

open scoped BigOperators

namespace Cert.PoolSum

open Cert.ReferenceIdeal Idealize.ShloMosaic Idealize.ShloMosaic.ValueIdx

local notation "dS" => scatter_S64x128_S50000x1_S50000x128_1_0_0_1

theorem start_zero (bt : IVec S50000x1 32) (r : Fin 50000) (c : Fin 128) :
    ScatterDims.start dS (ix2 r c : S50000x128.Idx) bt 0 = (bt (ix2 r (0 : Fin 1))).toInt := by
  unfold ScatterDims.start
  rw [dif_pos (show (0 : Fin 2) ∈ ScatterDims.scatterDimsToOperandDims dS from List.mem_singleton.mpr rfl)]
  have hsi : ScatterDims.siIdx dS (ix2 r c : S50000x128.Idx)
      ⟨List.idxOf (0 : Fin 2) (ScatterDims.scatterDimsToOperandDims dS),
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]

theorem start_one (bt : IVec S50000x1 32) (r : Fin 50000) (c : Fin 128) :
    ScatterDims.start dS (ix2 r c : S50000x128.Idx) bt 1 = 0 := by
  unfold ScatterDims.start
  rw [dif_neg (show ¬ (1 : Fin 2) ∈ ScatterDims.scatterDimsToOperandDims dS by decide)]

theorem window_zero (r : Fin 50000) (c : Fin 128) : ScatterDims.window dS (ix2 r c : S50000x128.Idx) 0 = 0 := by
  unfold ScatterDims.window
  rw [dif_neg (show ¬ (0 : Fin 2) ∈ ScatterDims.sKept dS by decide)]

theorem window_one (r : Fin 50000) (c : Fin 128) : ScatterDims.window dS (ix2 r c : S50000x128.Idx) 1 = c.val := by
  unfold ScatterDims.window
  rw [dif_pos (show (1 : Fin 2) ∈ ScatterDims.sKept dS by decide)]
  rfl

theorem word_eq_iff (w : BitVec 32) (g : Fin 64) : w = BitVec.ofNat 32 g.val ↔ w.toInt = (g.val : Int) := by
  have hg : (BitVec.ofNat 32 g.val).toInt = (g.val : Int) := by
    rw [BitVec.toInt_ofNat']
    have := g.isLt
    refine Int.bmod_eq_of_le_mul_two ?_ ?_ <;> omega
  constructor
  · intro e; rw [e, hg]
  · intro e; exact BitVec.eq_of_toInt_eq (e.trans hg.symm)

-- With the row's graph word the word of g, update entry (r, c) lands, axis by axis, at (g, c).
theorem land (bt : IVec S50000x1 32) (r : Fin 50000) (c : Fin 128) (g : Fin 64)
    (e : (bt (ix2 r (0 : Fin 1))).toInt = (g.val : Int)) (a : Fin 2) :
    ScatterDims.start dS (ix2 r c : S50000x128.Idx) bt a + ScatterDims.window dS (ix2 r c : S50000x128.Idx) a
      = (((ix2 g c : S64x128.Idx) a).val : Int) := by
  match a with
  | ⟨0, _⟩ =>
    show ScatterDims.start dS (ix2 r c : S50000x128.Idx) bt 0 + ScatterDims.window dS (ix2 r c : S50000x128.Idx) 0 = (g.val : Int)
    rw [start_zero, window_zero, e]; omega
  | ⟨1, _⟩ =>
    show ScatterDims.start dS (ix2 r c : S50000x128.Idx) bt 1 + ScatterDims.window dS (ix2 r c : S50000x128.Idx) 1 = (c.val : Int)
    rw [start_one, window_one]; omega

-- Update entry (r, c) lands on (g, f) exactly when row r's graph word is the word of g and c = f.
theorem resultIdx_iff (bt : IVec S50000x1 32) (r : Fin 50000) (c : Fin 128) (g : Fin 64) (f : Fin 128) :
    ScatterDims.resultIdx? dS (ix2 r c : S50000x128.Idx) bt = some (ix2 g f) ↔
      (bt (ix2 r (0 : Fin 1)) = BitVec.ofNat 32 g.val ∧ c = f) := by
  rw [word_eq_iff]
  unfold ScatterDims.resultIdx?
  split_ifs with hall
  · rw [Option.some.injEq]
    constructor
    · intro e
      have e0 := congrArg Fin.val (congrFun e 0)
      have e1 := congrArg Fin.val (congrFun e 1)
      have h0 := (hall 0).1
      simp only [start_zero, start_one, window_zero, window_one] at e0 e1 h0
      refine ⟨?_, Fin.ext ?_⟩
      · change ((bt (ix2 r (0 : Fin 1))).toInt + ((0 : Nat) : Int)).toNat = g.val at e0
        omega
      · change ((0 : Int) + (c.val : Int)).toNat = f.val at e1
        omega
    · rintro ⟨e, rfl⟩
      funext a
      refine Fin.ext ?_
      show (ScatterDims.start dS (ix2 r c : S50000x128.Idx) bt a + ScatterDims.window dS (ix2 r c : S50000x128.Idx) a).toNat = _
      rw [land bt r c g e a]; omega
  · constructor
    · intro e; exact absurd e (by simp)
    · rintro ⟨e, rfl⟩
      refine absurd (fun a => ?_) hall
      have : ((ix2 g c : S64x128.Idx) a).val < S64x128.size a := ((ix2 g c : S64x128.Idx) a).isLt
      rw [land bt r c g e a]; omega

theorem pool_apply (h : FVec Ideal Cert.ReferenceIdeal.S50000x128 .f32) (bt : IVec Cert.ReferenceIdeal.S50000x1 32)
    (g : Fin 64) (f : Fin 128) :
    Cert.Spec.pool h bt (ValueIdx.ix2 g f) =
      ∑ r : Fin 50000, (if bt (ValueIdx.ix2 r (0 : Fin 1)) = BitVec.ofNat 32 g.val then (1 : EReal) else 0) *
        h (ValueIdx.ix2 r f) := by
  unfold Cert.Spec.pool Host.scatterAdd
  rw [Ideal.hostScatterAdd_def]
  unfold Ideal.hostScatterAdd
  rw [broadcastInDim_scalar_apply, constant_apply, Ideal.ofBits_zero_f32, zero_add, Finset.sum_filter,
    sum_idx2 (n0 := 50000) (n1 := 128)]
  refine Finset.sum_congr rfl fun r _ => ?_
  simp only [resultIdx_iff]
  by_cases hw : bt (ix2 r (0 : Fin 1)) = BitVec.ofNat 32 g.val
  ·
    rw [if_pos hw, one_mul, Finset.sum_eq_single f]
    · rw [if_pos ⟨hw, rfl⟩]
    · intro c _ hc; exact if_neg (fun hh => hc hh.2)
    · intro hf; exact absurd (Finset.mem_univ f) hf
  ·
    rw [if_neg hw, zero_mul]
    exact Finset.sum_eq_zero fun c _ => if_neg (fun hh => hw hh.1)

theorem sum_tiles (φ : Fin 50000 → EReal) :
    ∑ r : Fin 50000, φ r = ∑ t : Fin 10, ∑ p : Fin 5000, φ ⟨5000 * t.val + p.val, by omega⟩ := by
  let e : Fin 10 × Fin 5000 ≃ Fin 50000 := finProdFinEquiv
  rw [← Equiv.sum_comp e φ, Fintype.sum_prod_type]
  exact Finset.sum_congr rfl fun t _ => Finset.sum_congr rfl fun p _ => congrArg φ (Fin.ext (Nat.add_comm _ _))

end Cert.PoolSum

end
-- ==== Proof.KI.Val4.lean ====
import proofs.«431055_j50766513438884_1_alg».proof.Proof.KI.Reg4
import proofs.«431055_j50766513438884_1_alg».proof.Proof.Spec
import proofs.«431055_j50766513438884_1_alg».proof.Proof.PoolSum
import proofs.«431055_j50766513438884_1_alg».proof.Proof.Dot

noncomputable section

namespace Cert.KernelIdeal.Hand

open Cert.KernelIdeal Cert.KernelIdeal.Gen Cert.Dot
open Idealize.ShloMosaic Idealize.ShloMosaic.TcCoe Idealize.ShloMosaic.ValueIdx Idealize.ShloMosaic.StackMember
open Idealize.SL.Sem
open Idealize.ShloMosaic.Pipeline (Dat Cfg Window)
open scoped BigOperators

noncomputable abbrev relu4 (z : EReal) : EReal := max z (Ideal.ofBits .f32 0x00000000#32)

noncomputable abbrev ind4 (w : BitVec 32) (g : Fin 64) : EReal := if w = BitVec.ofNat 32 g.val then 1 else 0

-- A comparison bit widened to a word and converted is the real one or zero.
theorem bit_real4 (a b : BitVec 32) :
    ((((IntOp.cmpi .eq a b).setWidth 32).toInt : ℝ) : EReal) = if a = b then 1 else 0 := by
  rw [toInt_setWidth_bit, show IntOp.cmpi .eq a b = BitVec.ofBool (a == b) from rfl]
  by_cases h : a = b <;> simp [h]

-- A point adds to the sum it finds, at (g, f), its tile's rectified rows whose graph word is the word of g.
theorem pay4_2_apply (x : Vec Ideal S5000x128 .f32) (b : Vec Ideal S1x128 .f32) (gi : Vec Ideal S5000x1 .i32)
    (acc : Vec Ideal S64x128 .f32) (g : Fin 64) (f : Fin 128) :
    k4_pay2 x b gi acc (ix2 g f)
      = acc (ix2 g f) + ∑ p : Fin 5000, ind4 (gi (ix2 p (0 : Fin 1))) g * relu4 (x (ix2 p f) + b (ix2 (0 : Fin 1) f)) := by
  unfold k4_pay2
  simp only [shapeCast_self, matmul_zero_eq_dotGeneral]
  refine congrArg (acc (ix2 g f) + ·) ((dotGeneral_rows_apply _ none _ _ g f).trans
    (Finset.sum_congr rfl fun p _ => congrArg₂ (· * ·) ?_ ?_))
  · show ((((IntOp.cmpi .eq (broadcastTo S5000x64 gi broadcasts_S5000x1_S5000x64 (ix2 p g))
      (iota .tc S5000x64 32 [1] iota_S5000x64_d1_w32 (ix2 p g))).setWidth 32).toInt : ℝ) : EReal) = _
    rw [bit_real4, iota_single_apply, broadcastTo_apply gi broadcasts_S5000x1_S5000x64 (ix2 p g) (ix2 p (0 : Fin 1)) fun ax => by
      match ax with
      | ⟨0, _⟩ => rfl
      | ⟨1, _⟩ => rfl]
  · show max (x (ix2 p f) + broadcastTo S5000x128 b broadcasts_S1x128_S5000x128 (ix2 p f)) _ = _
    rw [broadcastTo_1b_ab_apply]
    rfl

variable (V : (c : Dev nD) → (b : Ref sig .tc) → Buf (Elt Ideal) ((c : Thread nD τ).loc b))

theorem lt10_4 (t : Fin cfg4.N) : t.val < 10 := lt_of_lt_of_eq t.isLt N_4

noncomputable abbrev featArr4 (c : Dev nD) : Vec Ideal S50000x128 .f32 := V c main_v88
noncomputable abbrev biasArr4 (c : Dev nD) : Vec Ideal S1x128 .f32 := V c main_v89
noncomputable abbrev gidArr4 (c : Dev nD) : Vec Ideal S50000x1 .i32 := V c main_v90

theorem idx4_facts : ∀ t : Fin cfg4.N, win4_0.index t 0 = t.val ∧ win4_0.index t 1 = 0
    ∧ win4_1.index t 0 = 0 ∧ win4_1.index t 1 = 0 ∧ win4_2.index t 0 = t.val ∧ win4_2.index t 1 = 0 :=
  (by decide +kernel : ∀ t : Fin grid4.N, _)

noncomputable abbrev row4 (t : Fin cfg4.N) (p : Fin 5000) : Fin 50000 := ⟨5000 * t.val + p.val, by have := lt10_4 t; omega⟩

-- Row p of tile t is node row 5000·t + p.
theorem blk4 (c : Dev nD) (t : Fin cfg4.N) (p : Fin 5000) (f : Fin 128) :
    (iblk4 V c 0 t : Vec Ideal S5000x128 .f32) (ix2 p f) = featArr4 V c (ix2 (row4 t p) f)
      ∧ (iblk4 V c 1 t : Vec Ideal S1x128 .f32) (ix2 (0 : Fin 1) f) = biasArr4 V c (ix2 (0 : Fin 1) f)
      ∧ (iblk4 V c 2 t : Vec Ideal S5000x1 .i32) (ix2 p (0 : Fin 1)) = gidArr4 V c (ix2 (row4 t p) (0 : Fin 1)) := by
  obtain ⟨e0, e1, e2, e3, e4, e5⟩ := idx4_facts t
  exact ⟨congrArg (V c main_v88) (ix2_of ((win4_0.rect_emb_val t _ 0).trans (by rw [e0, Nat.mul_comm]; rfl)) (win4_0.rect_emb_val_of_index_zero t 1 e1 _)),
    congrArg (V c main_v89) (ix2_of (win4_1.rect_emb_val_of_index_zero t 0 e2 _) (win4_1.rect_emb_val_of_index_zero t 1 e3 _)),
    congrArg (V c main_v90) (ix2_of ((win4_2.rect_emb_val t _ 0).trans (by rw [e4, Nat.mul_comm]; rfl)) (win4_2.rect_emb_val_of_index_zero t 1 e5 _))⟩

noncomputable def tileSum4 (c : Dev nD) (g : Fin 64) (f : Fin 128) (s : ℕ) : EReal :=
  if hs : s < 10 then
    ∑ p : Fin 5000, ind4 (gidArr4 V c (ix2 (⟨5000 * s + p.val, by omega⟩ : Fin 50000) (0 : Fin 1))) g
      * relu4 (featArr4 V c (ix2 (⟨5000 * s + p.val, by omega⟩ : Fin 50000) f) + biasArr4 V c (ix2 (0 : Fin 1) f))
  else 0

theorem point4_apply (c : Dev nD) (t : Fin cfg4.N) (acc : Vec Ideal S64x128 .f32) (g : Fin 64) (f : Fin 128) :
    k4_pay2 (iblk4 V c 0 t) (iblk4 V c 1 t) (iblk4 V c 2 t) acc (ix2 g f) = acc (ix2 g f) + tileSum4 V c g f t.val := by
  refine (pay4_2_apply _ _ _ acc g f).trans ?_
  unfold tileSum4
  rw [dif_pos (lt10_4 t)]
  refine congrArg (acc (ix2 g f) + ·) (Finset.sum_congr rfl fun p _ => ?_)
  obtain ⟨h0, h1, h2⟩ := blk4 V c t p f
  rw [h0, h1, h2]

-- After point n the running sum is the first n + 1 tiles' contributions: the first point starts from zero.
theorem acc4_apply (c : Dev nD) (g : Fin 64) (f : Fin 128) :
    ∀ (n : ℕ) (h : n < cfg4.N), acc4 V c n h (ix2 g f) = ∑ s ∈ Finset.range (n + 1), tileSum4 V c g f s
  | 0, h => by
    refine (congrFun (acc4_zero V c h) (ix2 g f)).trans ((point4_apply V c ⟨0, h⟩ (k4_pay1 (F := Ideal)) g f).trans ?_)
    rw [Finset.sum_range_one]
    refine (congrArg (· + _) ?_).trans (zero_add _)
    unfold k4_pay1
    rw [shapeCast_self]
    exact Ideal.ofBits_zero_f32
  | n + 1, h => by
    refine (congrFun (acc4_succ V c n h) (ix2 g f)).trans ((point4_apply V c ⟨n + 1, h⟩ (acc4 V c n (Nat.lt_of_succ_lt h)) g f).trans ?_)
    rw [acc4_apply c g f n (Nat.lt_of_succ_lt h), Finset.sum_range_succ _ (n + 1)]

noncomputable abbrev pooled4 (c : Dev nD) : Vec Ideal S64x128 .f32 :=
  Cert.Spec.pool (Cert.Spec.biasRelu (V c main_v88) (V c main_v89)) (V c main_v90)

-- The pooled array at (g, f): the sum over all node rows splits into the ten tiles.
theorem pooled4_apply (c : Dev nD) (g : Fin 64) (f : Fin 128) :
    pooled4 V c (ix2 g f) = ∑ s ∈ Finset.range 10, tileSum4 V c g f s := by
  show Cert.Spec.pool _ _ (ix2 g f) = _
  rw [Cert.PoolSum.pool_apply, Cert.PoolSum.sum_tiles, ← Fin.sum_univ_eq_sum_range]
  refine Finset.sum_congr rfl fun t _ => ?_
  unfold tileSum4
  rw [dif_pos t.isLt]
  refine Finset.sum_congr rfl fun p _ => ?_
  unfold Cert.Spec.biasRelu
  show _ * max (_ + broadcastInDim _ _ _ _ (ix2 _ f)) (Ideal.ofBits .f32 0x00000000#32) = _
  rw [broadcastInDim_oneRow_apply]

theorem idx4_3 : ∀ a, win4_3.index t4_9 a = 0 := by decide +kernel

-- After the tenth tile the running sum is the pooled array.
theorem flushed4_eq (c : Dev nD) (t : Fin cfg4.N) (hf : (cfg4.win 3).flush t = true) :
    (dat4 (F := Ideal) V c).flushed 3 t = ((cfg4.win 3).blk t).view.read (Elt Ideal) (pooled4 V c) := by
  have h9 : t.val = 9 := by have := (flush4_3 t).mp hf; have := lt10_4 t; omega
  obtain rfl : t = t4_9 := Fin.ext h9
  show (cfg4.win 3).cut (grid4.coords t4_9) ((dat4 (F := Ideal) V c).after 3 t4_9) = _
  have e : acc4 V c t4_9.val t4_9.isLt = pooled4 V c := funext fun j => by
    obtain ⟨g, f, rfl⟩ : ∃ (g : Fin 64) (f : Fin 128), j = ix2 g f := ⟨j 0, j 1, eq_ix2 j⟩
    exact (acc4_apply V c g f 9 t4_9.isLt).trans (pooled4_apply V c g f).symm
  rw [after4_3, e]
  have hz : (fun a => win4_3.index t4_9 a * main_v91.ty.shape.size a) = fun _ => 0 :=
    funext fun a => by rw [idx4_3 a, Nat.zero_mul]
  exact (Memref.read_access_unit_zero (Elt Ideal) main_v91 hz (fun a => by rw [congrFun hz a]; simp) (pooled4 V c)).symm

theorem arr4 (c : Dev nD) :
    (dat4 (F := Ideal) V c).arrAt 3 cfg4.N
      = Cert.Spec.pool (Cert.Spec.biasRelu (V c main_v88) (V c main_v89)) (V c main_v90) :=
  (dat4 (F := Ideal) V c).arrAt_eq_of_cover 3 (pooled4 V c) (flushed4_eq V c) fun i =>
    ⟨t4_9, (flush4_3 t4_9).mpr rfl,
      (funext fun x => Fin.ext (win4_3.rect_emb_val_of_index_zero t4_9 x (idx4_3 x) i) : ((cfg4.win 3).blk t4_9).view.emb i = i) ▸ View.emb_mem_set _ _⟩

end Cert.KernelIdeal.Hand

end
-- ==== Proof.KI.Val5.lean ====
import proofs.«431055_j50766513438884_1_alg».proof.Proof.KI.Reg5
import proofs.«431055_j50766513438884_1_alg».proof.Proof.Spec
import proofs.«431055_j50766513438884_1_alg».proof.Proof.Dot

noncomputable section

namespace Cert.KernelIdeal.Hand

open Cert.KernelIdeal Cert.KernelIdeal.Gen Cert.Dot
open Idealize.ShloMosaic Idealize.ShloMosaic.TcCoe Idealize.ShloMosaic.ValueIdx Idealize.ShloMosaic.StackMember
open Idealize.SL.Sem
open Idealize.ShloMosaic.Pipeline (Dat Cfg Window)
open scoped BigOperators

variable (V : (c : Dev nD) → (b : Ref sig .tc) → Buf (Elt Ideal) ((c : Thread nD τ).loc b))

-- Each layer is max(g · W + b, 0): a product accumulated from zero is the product, and both broadcasts of the bias row agree.
theorem body5_eq (x0 : Vec Ideal S64x128 .f32) (x1 : Vec Ideal S128x73 .f32) (x2 : Vec Ideal S1x73 .f32) (x3 : Vec Ideal S73x41 .f32) (x4 : Vec Ideal S1x41 .f32)
    (x5 : Vec Ideal S41x24 .f32) (x6 : Vec Ideal S1x24 .f32) :
    k5_pay1 x0 x1 x2 x3 x4 x5 x6 = Cert.Spec.head x0 x1 x2 x3 x4 x5 x6 := by
  unfold k5_pay1
  simp only [shapeCast_self, matmul_zero_eq_dotGeneral]
  rw [broadcastTo_eq_inDim _ _ Cert.ReferenceIdeal.Gen.bcast_S1x73_S64x73_0_1, broadcastTo_eq_inDim _ _ Cert.ReferenceIdeal.Gen.bcast_S1x41_S64x41_0_1,
    broadcastTo_eq_inDim _ _ Cert.ReferenceIdeal.Gen.bcast_S1x24_S64x24_0_1]
  rfl

theorem idx5 : ∀ (t : Fin cfg5.N) (w : Fin cfg5.W) (a : Fin (cfg5.win w).shape.rank), (cfg5.win w).index t a = 0 :=
  (by decide +kernel : ∀ (t : Fin grid5.N) (w : Fin cfg5.W) (a : Fin (cfg5.win w).shape.rank), _)

theorem blk5 (c : Dev nD) (t : Fin cfg5.N) :
    (iblk5 V c 0 t : Vec Ideal S64x128 .f32) = (V c main_v100 : S64x128.Idx → EReal)
      ∧ (iblk5 V c 1 t : Vec Ideal S128x73 .f32) = (V c main_arg7 : S128x73.Idx → EReal)
      ∧ (iblk5 V c 2 t : Vec Ideal S1x73 .f32) = (V c main_v101 : S1x73.Idx → EReal)
      ∧ (iblk5 V c 3 t : Vec Ideal S73x41 .f32) = (V c main_arg9 : S73x41.Idx → EReal)
      ∧ (iblk5 V c 4 t : Vec Ideal S1x41 .f32) = (V c main_v102 : S1x41.Idx → EReal)
      ∧ (iblk5 V c 5 t : Vec Ideal S41x24 .f32) = (V c main_arg11 : S41x24.Idx → EReal)
      ∧ (iblk5 V c 6 t : Vec Ideal S1x24 .f32) = (V c main_v103 : S1x24.Idx → EReal) :=
  ⟨funext fun y => congrArg (V c main_v100) (funext fun x => Fin.ext (win5_0.rect_emb_val_of_index_zero t x (idx5 t 0 x) y)),
    funext fun y => congrArg (V c main_arg7) (funext fun x => Fin.ext (win5_1.rect_emb_val_of_index_zero t x (idx5 t 1 x) y)),
    funext fun y => congrArg (V c main_v101) (funext fun x => Fin.ext (win5_2.rect_emb_val_of_index_zero t x (idx5 t 2 x) y)),
    funext fun y => congrArg (V c main_arg9) (funext fun x => Fin.ext (win5_3.rect_emb_val_of_index_zero t x (idx5 t 3 x) y)),
    funext fun y => congrArg (V c main_v102) (funext fun x => Fin.ext (win5_4.rect_emb_val_of_index_zero t x (idx5 t 4 x) y)),
    funext fun y => congrArg (V c main_arg11) (funext fun x => Fin.ext (win5_5.rect_emb_val_of_index_zero t x (idx5 t 5 x) y)),
    funext fun y => congrArg (V c main_v103) (funext fun x => Fin.ext (win5_6.rect_emb_val_of_index_zero t x (idx5 t 6 x) y))⟩

theorem flushed5_eq (c : Dev nD) (t : Fin cfg5.N) :
    (dat5 (F := Ideal) V c).flushed 7 t = ((cfg5.win 7).blk t).view.read (Elt Ideal)
      (Cert.Spec.head (V c main_v100) (V c main_arg7) (V c main_v101) (V c main_arg9) (V c main_v102) (V c main_arg11) (V c main_v103)) := by
  show (cfg5.win 7).cut (grid5.coords t) ((dat5 (F := Ideal) V c).after 7 t) = _
  rw [after5_7]
  unfold out5_7
  rw [View.canon_unit_zero zeros]
  simp only [View.ld_unit_zero (S := S64x128) zeros, View.ld_unit_zero (S := S128x73) zeros, View.ld_unit_zero (S := S1x73) zeros, View.ld_unit_zero (S := S73x41) zeros,
    View.ld_unit_zero (S := S1x41) zeros, View.ld_unit_zero (S := S41x24) zeros, View.ld_unit_zero (S := S1x24) zeros]
  obtain ⟨b0, b1, b2, b3, b4, b5, b6⟩ := blk5 V c t
  rw [body5_eq, b0, b1, b2, b3, b4, b5, b6]
  funext y
  exact congrArg (Cert.Spec.head (V c main_v100) (V c main_arg7) (V c main_v101) (V c main_arg9) (V c main_v102) (V c main_arg11) (V c main_v103))
    (funext fun x => Fin.ext (win5_7.rect_emb_val_of_index_zero t x (idx5 t 7 x) y)).symm

theorem cover5 (i : S64x24.Idx) : ∃ t : Fin cfg5.N, (cfg5.win 7).flush t = true ∧ i ∈ ((cfg5.win 7).blk t).view.set := by
  have t : Fin cfg5.N := ⟨0, by have h : cfg5.N = 1 := N_5; omega⟩
  have e : ((cfg5.win 7).blk t).view.emb i = i := funext fun x => Fin.ext (win5_7.rect_emb_val_of_index_zero t x (idx5 t 7 x) i)
  exact ⟨t, flush5_7 t, e ▸ View.emb_mem_set _ _⟩

theorem arr5 (c : Dev nD) : (dat5 (F := Ideal) V c).arrAt 7 cfg5.N = Cert.Spec.head (V c main_v100) (V c main_arg7) (V c main_v101) (V c main_arg9) (V c main_v102) (V c main_arg11) (V c main_v103) :=
  (dat5 (F := Ideal) V c).arrAt_eq_of_cover 7 _ (fun t _ => flushed5_eq V c t) cover5

end Cert.KernelIdeal.Hand

end
-- ==== Proof.KI.Value.lean ====
import proofs.«431055_j50766513438884_1_alg».proof.Proof.KI.Keep
import proofs.«431055_j50766513438884_1_alg».proof.Proof.KI.HostVal
import proofs.«431055_j50766513438884_1_alg».proof.Proof.KI.Val0
import proofs.«431055_j50766513438884_1_alg».proof.Proof.KI.Val1
import proofs.«431055_j50766513438884_1_alg».proof.Proof.KI.Val2
import proofs.«431055_j50766513438884_1_alg».proof.Proof.KI.Val3
import proofs.«431055_j50766513438884_1_alg».proof.Proof.KI.Val4
import proofs.«431055_j50766513438884_1_alg».proof.Proof.KI.Val5
import proofs.«431055_j50766513438884_1_alg».proof.Proof.Spec

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-- The launch contents of an argument. -/
noncomputable abbrev arg (r : Ref sig .tc) : Buf (Elt Ideal) ((c : Thread nD τ).loc r) := m ((c : Thread nD τ).loc r)

/-- One aggregation over the launched edge list. -/
noncomputable abbrev aggr (p : FVec Ideal Cert.ReferenceIdeal.S50000x128 .f32) : FVec Ideal Cert.ReferenceIdeal.S50000x128 .f32 :=
  Cert.Spec.agg (Cert.Spec.row (arg m c main_arg1)) (Cert.Spec.col (arg m c main_arg1)) (Cert.Spec.norm (arg m c main_arg1)) p
/-- One round of the network: aggregate, add the bias and rectify, project. -/
noncomputable abbrev layer (b : FVec Ideal Cert.ReferenceIdeal.S128 .f32) (p : FVec Ideal Cert.ReferenceIdeal.S50000x128 .f32) :=
  Cert.Spec.lin (Cert.Spec.biasRelu (aggr m c p) (Cert.Spec.rowOf128 b)) (arg m c main_arg5)
noncomputable abbrev p1 := Cert.Spec.lin0 (arg m c main_arg0) (arg m c main_arg3)
noncomputable abbrev p2 := layer m c (arg m c main_arg4) (p1 m c)
noncomputable abbrev p3 := layer m c (arg m c main_arg6) (p2 m c)
noncomputable abbrev p4 := layer m c (arg m c main_arg6) (p3 m c)
noncomputable abbrev sums := Cert.Spec.pool (Cert.Spec.biasRelu (aggr m c (p4 m c)) (Cert.Spec.rowOf128 (arg m c main_arg6))) (Cert.Spec.colOfBatch (arg m c main_arg2))

-- The first three stretches compute the edge lists and weights, and nothing from boundary 3 to boundary 10 writes them.
theorem aggr_at (d : ℕ) (hd : d ≤ 7) {q p : FVec Ideal Cert.ReferenceIdeal.S50000x128 .f32} (hp : q = p) :
    Cert.Spec.agg (bdry m ρ (3 + d) c (Proc.devRef .tc main_v5)) (bdry m ρ (3 + d) c (Proc.devRef .tc main_v6)) (bdry m ρ (3 + d) c (Proc.devRef .tc main_v29)) q
      = aggr m c p := by
  have k := fun r hr => bdry_keep m ρ c r 3 d fun k hk =>
    (by decide : ∀ r ∈ ([main_v5, main_v6, main_v29] : List (Ref sig .tc)), ∀ k < 7, r ∉ bdryW (3 + k)) r hr k (hk.trans_le hd)
  obtain ⟨h5, h6, h29⟩ := HostVal.prep (B0 m ρ c) (V := bdry m ρ 3 c) rfl
  rw [hp, k main_v5 (by decide), k main_v6 (by decide), k main_v29 (by decide), h5, h6, h29]

theorem B4_p1 : B4 m ρ c (Proc.devRef .tc main_v30) = p1 m c :=
  (B4_arr m ρ c 2).trans <| (arr0 _ c).trans <| congrArg₂ Cert.Spec.lin0 (bdry_keep m ρ c main_arg0 0 3 (by decide)) (bdry_keep m ρ c main_arg3 0 3 (by decide))

theorem B6_p2 : B6 m ρ c (Proc.devRef .tc main_v45) = p2 m c :=
  (B6_arr m ρ c 3).trans <| (arr1 _ c).trans <| congrArg₂ Cert.Spec.lin (congrArg₂ Cert.Spec.biasRelu
      ((HostVal.round1 (B4 m ρ c)).1.trans (aggr_at m ρ c 1 (by decide) (B4_p1 m ρ c)))
      ((HostVal.round1 (B4 m ρ c)).2.trans (congrArg _ (bdry_keep m ρ c main_arg4 0 4 (by decide)))))
    (bdry_keep m ρ c main_arg5 0 5 (by decide))

theorem B8_p3 : B8 m ρ c (Proc.devRef .tc main_v60) = p3 m c :=
  (B8_arr m ρ c 3).trans <| (arr2 _ c).trans <| congrArg₂ Cert.Spec.lin (congrArg₂ Cert.Spec.biasRelu
      ((HostVal.round2 (B6 m ρ c)).1.trans (aggr_at m ρ c 3 (by decide) (B6_p2 m ρ c)))
      ((HostVal.round2 (B6 m ρ c)).2.trans (congrArg _ (bdry_keep m ρ c main_arg6 0 6 (by decide)))))
    (bdry_keep m ρ c main_arg5 0 7 (by decide))

theorem B10_p4 : B10 m ρ c (Proc.devRef .tc main_v75) = p4 m c :=
  (B10_arr m ρ c 3).trans <| (arr3 _ c).trans <| congrArg₂ Cert.Spec.lin (congrArg₂ Cert.Spec.biasRelu
      ((HostVal.round3 (B8 m ρ c)).1.trans (aggr_at m ρ c 5 (by decide) (B8_p3 m ρ c)))
      ((HostVal.round3 (B8 m ρ c)).2.trans (congrArg _ (bdry_keep m ρ c main_arg6 0 8 (by decide)))))
    (bdry_keep m ρ c main_arg5 0 9 (by decide))

theorem B12_sums : B12 m ρ c (Proc.devRef .tc main_v91) = sums m c :=
  (B12_arr m ρ c 3).trans <| (arr4 _ c).trans <| congrArg₂ Cert.Spec.pool (congrArg₂ Cert.Spec.biasRelu
      ((HostVal.round4 (B10 m ρ c)).1.trans (aggr_at m ρ c 7 (by decide) (B10_p4 m ρ c)))
      ((HostVal.round4 (B10 m ρ c)).2.1.trans (congrArg _ (bdry_keep m ρ c main_arg6 0 10 (by decide)))))
    ((HostVal.round4 (B10 m ρ c)).2.2.trans (congrArg _ (bdry_keep m ρ c main_arg2 0 10 (by decide))))

theorem value_run : θ_run defs (onTc (τ := τ) (main (F := Ideal))) ⟨m, fun _ => 0, ρ⟩ (fun r => ∀ c : Dev nD,
      r.2.mem ((c.tc : Thread nD τ).loc main_v104) = Cert.Spec.whole (arg m c main_arg0) (arg m c main_arg1) (arg m c main_arg2) (arg m c main_arg3) (arg m c main_arg4) (arg m c main_arg5) (arg m c main_arg6)
        (arg m c main_arg7) (arg m c main_arg8) (arg m c main_arg9) (arg m c main_arg10) (arg m c main_arg11) (arg m c main_arg12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c => by
    refine ⟨(h c _ (mem_uc main_v104 (by decide))).trans <| (B14_arr m ρ c 7).trans <| (arr5 _ c).trans <| congr (congr (congr (congr (congr (congr (congrArg Cert.Spec.head
      ((HostVal.tail5 (B12 m ρ c)).1.trans (congrArg₂ Cert.Spec.meanDiv (B12_sums m ρ c) (bdry_keep m ρ c main_arg2 0 12 (by decide)))))
      (bdry_keep m ρ c main_arg7 0 13 (by decide))) ((HostVal.tail5 (B12 m ρ c)).2.1.trans (congrArg _ (bdry_keep m ρ c main_arg8 0 12 (by decide)))))
      (bdry_keep m ρ c main_arg9 0 13 (by decide))) ((HostVal.tail5 (B12 m ρ c)).2.2.1.trans (congrArg _ (bdry_keep m ρ c main_arg10 0 12 (by decide)))))
      (bdry_keep m ρ c main_arg11 0 13 (by decide))) ((HostVal.tail5 (B12 m ρ c)).2.2.2.trans (congrArg _ (bdry_keep m ρ c main_arg12 0 12 (by decide)))),
      ?_, ?_, ?_, ?_, ?_, ?_, ?_, ?_, ?_, ?_, ?_, ?_, ?_⟩ <;>
      exact (h c _ (mem_uc _ (by decide))).trans (bdry_keep m ρ c _ 0 14 (by decide))) (run_all m ρ)

end Cert.KernelIdeal.Hand

end
-- ==== Proof.RefImports.lean ====
import proofs.«431055_j50766513438884_1_alg».proof.Proof.RefRun
-- ==== Proof.RefSpec.lean ====
import proofs.«431055_j50766513438884_1_alg».proof.Proof.Spec
import proofs.«431055_j50766513438884_1_alg».proof.Proof.RefImports

namespace Cert.RefSpec

open Idealize.ShloMosaic Idealize.ShloMosaic.TcCoe Idealize.SL.Sem

theorem ref_eq_spec (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c =
      Cert.Spec.whole (m ((c.tc : Thread _ _).loc Cert.ReferenceIdeal.main_arg0)) (m ((c.tc : Thread _ _).loc Cert.ReferenceIdeal.main_arg1))
        (m ((c.tc : Thread _ _).loc Cert.ReferenceIdeal.main_arg2)) (m ((c.tc : Thread _ _).loc Cert.ReferenceIdeal.main_arg3))
        (m ((c.tc : Thread _ _).loc Cert.ReferenceIdeal.main_arg4)) (m ((c.tc : Thread _ _).loc Cert.ReferenceIdeal.main_arg5))
        (m ((c.tc : Thread _ _).loc Cert.ReferenceIdeal.main_arg6)) (m ((c.tc : Thread _ _).loc Cert.ReferenceIdeal.main_arg7))
        (m ((c.tc : Thread _ _).loc Cert.ReferenceIdeal.main_arg8)) (m ((c.tc : Thread _ _).loc Cert.ReferenceIdeal.main_arg9))
        (m ((c.tc : Thread _ _).loc Cert.ReferenceIdeal.main_arg10)) (m ((c.tc : Thread _ _).loc Cert.ReferenceIdeal.main_arg11))
        (m ((c.tc : Thread _ _).loc Cert.ReferenceIdeal.main_arg12)) := by
  unfold Cert.ReferenceIdeal.Value.res_out0 Cert.ReferenceIdeal.Value.res_main_v128 Cert.Spec.whole
  rfl

end Cert.RefSpec
-- ==== Proof.lean ====
/- A four-layer graph convolution network with per-graph mean pooling and a three-layer head. Over the extended reals both
   programs compute one function: a matrix product commutes with cutting its left factor into row tiles, and a product with a
   one-hot matrix is the sum over the rows it selects. No finiteness of the inputs is used. -/
import proofs.«431055_j50766513438884_1_alg».proof.Defs
import proofs.«431055_j50766513438884_1_alg».proof.Proof.Gen.Kernel
import proofs.«431055_j50766513438884_1_alg».proof.Proof.Gen.KernelIdeal
import proofs.«431055_j50766513438884_1_alg».proof.Proof.Gen.ReferenceIdeal
import proofs.«431055_j50766513438884_1_alg».proof.Proof.Gen.Pre_finite_inputs
import proofs.«431055_j50766513438884_1_alg».proof.Proof.KB.Keep
import proofs.«431055_j50766513438884_1_alg».proof.Proof.KI.Value
import proofs.«431055_j50766513438884_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  refine (Cert.RefSpec.ref_eq_spec m' c).trans ?_
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
